-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S8x4096x128 : Shape := ⟨3, ![8, 4096, 128]⟩
abbrev S8x4096x128x3 : Shape := ⟨4, ![8, 4096, 128, 3]⟩
abbrev S8 : Shape := ⟨1, ![8]⟩
abbrev S8x16 : Shape := ⟨2, ![8, 16]⟩
abbrev S_ : Shape := ⟨0, ![]⟩

class Facts : Prop where
  bcast_S_S8x4096x128 : S_.BroadcastsInDim S8x4096x128 (![] : Fin 0 → Fin S8x4096x128.rank)
  reducesTo_S8x4096x128_S_d0_1_2 : S8x4096x128.ReducesTo [0, 1, 2] S_
  h_S_ : 0 < S_.numel
  bcast_S_S8x4096x128x3 : S_.BroadcastsInDim S8x4096x128x3 (![] : Fin 0 → Fin S8x4096x128x3.rank)
  reducesTo_S8x4096x128x3_S_d0_1_2_3 : S8x4096x128x3.ReducesTo [0, 1, 2, 3] S_
  bcast_S_S8 : S_.BroadcastsInDim S8 (![] : Fin 0 → Fin S8.rank)
  reducesTo_S8_S_d0 : S8.ReducesTo [0] S_
  bcast_S_S8x16 : S_.BroadcastsInDim S8x16 (![] : Fin 0 → Fin S8x16.rank)
  reducesTo_S8x16_S_d0_1 : S8x16.ReducesTo [0, 1] S_

variable [Facts]

def fn_part1 {F : FTy → Type} [FloatOps F] (main_arg3 : IVec S8x16 32) (main_v15 : IVec S_ 1) (main_c_5 : IVec S_ 32) : IVec S_ 1 :=
  let main_v16 : IVec S8x16 32 := broadcastInDim S8x16 ![] bcast_S_S8x16 main_c_5
  let main_v17 : IVec S8x16 1 := cmpi .sge main_arg3 main_v16
  let main_c_6 : IVec S_ 32 := constantI S_ 32 32767#32
  let main_v18 : IVec S8x16 32 := broadcastInDim S8x16 ![] bcast_S_S8x16 main_c_6
  let main_v19 : IVec S8x16 1 := cmpi .sle main_arg3 main_v18
  let main_v20 : IVec S8x16 1 := andi main_v17 main_v19
  let main_c_7 : IVec S_ 1 := constantI S_ 1 1#1
  let main_v21 : IVec S_ 1 := (fun x v => Host.reduce IntOp.andi x v reducesTo_S8x16_S_d0_1 h_S_) main_v20 main_c_7
  let main_v22 : IVec S_ 1 := andi main_v15 main_v21
  main_v22

def fn {F : FTy → Type} [FloatOps F] (main_arg0 : FVec F S8x4096x128 .f32) (main_arg1 : FVec F S8x4096x128x3 .f32) (main_arg2 : IVec S8 32) (main_arg3 : IVec S8x16 32) : IVec S_ 1 :=
  let main_v0 : FVec F S8x4096x128 .f32 := Host.absf main_arg0
  let main_cst : FVec F S_ .f32 := constant S_ .f32 0x7F800000#32
  let main_v1 : FVec F S8x4096x128 .f32 := broadcastInDim S8x4096x128 ![] bcast_S_S8x4096x128 main_cst
  let main_v2 : IVec S8x4096x128 1 := cmpf .olt main_v0 main_v1
  let main_c : IVec S_ 1 := constantI S_ 1 1#1
  let main_v3 : IVec S_ 1 := (fun x v => Host.reduce IntOp.andi x v reducesTo_S8x4096x128_S_d0_1_2 h_S_) main_v2 main_c
  let main_v4 : FVec F S8x4096x128x3 .f32 := Host.absf main_arg1
  let main_cst_0 : FVec F S_ .f32 := constant S_ .f32 0x7F800000#32
  let main_v5 : FVec F S8x4096x128x3 .f32 := broadcastInDim S8x4096x128x3 ![] bcast_S_S8x4096x128x3 main_cst_0
  let main_v6 : IVec S8x4096x128x3 1 := cmpf .olt main_v4 main_v5
  let main_c_1 : IVec S_ 1 := constantI S_ 1 1#1
  let main_v7 : IVec S_ 1 := (fun x v => Host.reduce IntOp.andi x v reducesTo_S8x4096x128x3_S_d0_1_2_3 h_S_) main_v6 main_c_1
  let main_v8 : IVec S_ 1 := andi main_v3 main_v7
  let main_c_2 : IVec S_ 32 := constantI S_ 32 0#32
  let main_v9 : IVec S8 32 := broadcastInDim S8 ![] bcast_S_S8 main_c_2
  let main_v10 : IVec S8 1 := cmpi .sge main_arg2 main_v9
  let main_c_3 : IVec S_ 32 := constantI S_ 32 4095#32
  let main_v11 : IVec S8 32 := broadcastInDim S8 ![] bcast_S_S8 main_c_3
  let main_v12 : IVec S8 1 := cmpi .sle main_arg2 main_v11
  let main_v13 : IVec S8 1 := andi main_v10 main_v12
  let main_c_4 : IVec S_ 1 := constantI S_ 1 1#1
  let main_v14 : IVec S_ 1 := (fun x v => Host.reduce IntOp.andi x v reducesTo_S8_S_d0 h_S_) main_v13 main_c_4
  let main_v15 : IVec S_ 1 := andi main_v8 main_v14
  let main_c_5 : IVec S_ 32 := constantI S_ 32 0#32
  fn_part1 (F := F) main_arg3 main_v15 main_c_5
-- ==== Kernel.lean ====
abbrev S8x4096x128 : Shape := ⟨3, ![8, 4096, 128]⟩
abbrev S8x4096x128x3 : Shape := ⟨4, ![8, 4096, 128, 3]⟩
abbrev S8 : Shape := ⟨1, ![8]⟩
abbrev S8x16 : Shape := ⟨2, ![8, 16]⟩
abbrev S8x3x4096x128 : Shape := ⟨4, ![8, 3, 4096, 128]⟩
abbrev S32768x128 : Shape := ⟨2, ![32768, 128]⟩
abbrev S128 : Shape := ⟨1, ![128]⟩
abbrev S128x128 : Shape := ⟨2, ![128, 128]⟩
abbrev S8x128 : Shape := ⟨2, ![8, 128]⟩
abbrev S_ : Shape := ⟨0, ![]⟩
abbrev S8x16x128 : Shape := ⟨3, ![8, 16, 128]⟩
abbrev S1x1 : Shape := ⟨2, ![1, 1]⟩
abbrev S2x1x4096x128 : Shape := ⟨4, ![2, 1, 4096, 128]⟩
abbrev S2x4096x128 : Shape := ⟨3, ![2, 4096, 128]⟩
abbrev S2x16x128 : Shape := ⟨3, ![2, 16, 128]⟩
abbrev S4096x1 : Shape := ⟨2, ![4096, 1]⟩
abbrev S1x3 : Shape := ⟨2, ![1, 3]⟩
abbrev S4096x3 : Shape := ⟨2, ![4096, 3]⟩
abbrev S384x3 : Shape := ⟨2, ![384, 3]⟩
abbrev S384x128 : Shape := ⟨2, ![384, 128]⟩
abbrev S384x1 : Shape := ⟨2, ![384, 1]⟩
abbrev S48x3 : Shape := ⟨2, ![48, 3]⟩
abbrev S1x1x4096x128 : Shape := ⟨4, ![1, 1, 4096, 128]⟩
abbrev S4096x128 : Shape := ⟨2, ![4096, 128]⟩
abbrev S1x4096x128 : Shape := ⟨3, ![1, 4096, 128]⟩
abbrev S1x16x128 : Shape := ⟨3, ![1, 16, 128]⟩
abbrev S16x128 : Shape := ⟨2, ![16, 128]⟩
abbrev S1 : Shape := ⟨1, ![1]⟩
abbrev S4096x384 : Shape := ⟨2, ![4096, 384]⟩
abbrev S4095x128 : Shape := ⟨2, ![4095, 128]⟩
abbrev S1x128 : Shape := ⟨2, ![1, 128]⟩
abbrev S4094x128 : Shape := ⟨2, ![4094, 128]⟩
abbrev S2x128 : Shape := ⟨2, ![2, 128]⟩
abbrev S4093x128 : Shape := ⟨2, ![4093, 128]⟩
abbrev S3x128 : Shape := ⟨2, ![3, 128]⟩
abbrev S384x16 : Shape := ⟨2, ![384, 16]⟩
abbrev S384x48 : Shape := ⟨2, ![384, 48]⟩
abbrev S4096x48 : Shape := ⟨2, ![4096, 48]⟩
abbrev S1x4096x3 : Shape := ⟨3, ![1, 4096, 3]⟩
abbrev S1x1x1 : Shape := ⟨3, ![1, 1, 1]⟩

abbrev nBuf : Table → Nat
  | .hbm => 11
  | .local .tc .vmem => 11
  | .local .tc .smem => 1
  | .local .scVector .vmem => 2
  | _ => 0

abbrev bufTy : (tb : Table) → Fin (nBuf tb) → BufTy
  | .hbm, ⟨0, _⟩ => ⟨S8x4096x128, .f32⟩
  | .hbm, ⟨1, _⟩ => ⟨S8x4096x128x3, .f32⟩
  | .hbm, ⟨2, _⟩ => ⟨S8, .i32⟩
  | .hbm, ⟨3, _⟩ => ⟨S8x16, .i32⟩
  | .hbm, ⟨4, _⟩ => ⟨S8x3x4096x128, .f32⟩
  | .hbm, ⟨5, _⟩ => ⟨S32768x128, .f32⟩
  | .hbm, ⟨6, _⟩ => ⟨S128, .i32⟩
  | .hbm, ⟨7, _⟩ => ⟨S128x128, .f32⟩
  | .hbm, ⟨8, _⟩ => ⟨S8x16x128, .f32⟩
  | .hbm, ⟨9, _⟩ => ⟨S1x1, .f32⟩
  | .hbm, ⟨10, _⟩ => ⟨S_, .f32⟩
  | .local .tc .vmem, ⟨0, _⟩ => ⟨S2x1x4096x128, .f32⟩
  | .local .tc .vmem, ⟨1, _⟩ => ⟨S2x1x4096x128, .f32⟩
  | .local .tc .vmem, ⟨2, _⟩ => ⟨S2x1x4096x128, .f32⟩
  | .local .tc .vmem, ⟨3, _⟩ => ⟨S2x1x4096x128, .f32⟩
  | .local .tc .vmem, ⟨4, _⟩ => ⟨S2x1x4096x128, .f32⟩
  | .local .tc .vmem, ⟨5, _⟩ => ⟨S2x1x4096x128, .f32⟩
  | .local .tc .vmem, ⟨6, _⟩ => ⟨S2x4096x128, .f32⟩
  | .local .tc .vmem, ⟨7, _⟩ => ⟨S2x4096x128, .f32⟩
  | .local .tc .vmem, ⟨8, _⟩ => ⟨S2x16x128, .f32⟩
  | .local .tc .vmem, ⟨9, _⟩ => ⟨S2x16x128, .f32⟩
  | .local .tc .vmem, ⟨10, _⟩ => ⟨S1x1, .f32⟩
  | .local .tc .smem, ⟨0, _⟩ => ⟨S8, .i32⟩
  | .local .scVector .vmem, ⟨0, _⟩ => ⟨S8, .i32⟩
  | .local .scVector .vmem, ⟨1, _⟩ => ⟨S8x128, .f32⟩
  | _, _ => ⟨S8x4096x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v1_scv : Ref sig .scVector := ⟨.hbm, 5, rfl⟩
abbrev main_v2_scv : Ref sig .scVector := ⟨.hbm, 6, rfl⟩
abbrev main_v3_scv : Ref sig .scVector := ⟨.hbm, 7, rfl⟩
abbrev cc1_stg1_0 : Ref sig .tc := ⟨.vmem, 0, rfl⟩
abbrev cc1_stg1_1 : Ref sig .tc := ⟨.vmem, 1, rfl⟩
abbrev cc1_stg2_0 : Ref sig .tc := ⟨.vmem, 2, rfl⟩
abbrev cc1_stg2_1 : Ref sig .tc := ⟨.vmem, 3, rfl⟩
abbrev cc1_stg3_0 : Ref sig .tc := ⟨.vmem, 4, rfl⟩
abbrev cc1_stg3_1 : Ref sig .tc := ⟨.vmem, 5, rfl⟩
abbrev cc1_stg4_0 : Ref sig .tc := ⟨.vmem, 6, rfl⟩
abbrev cc1_stg4_1 : Ref sig .tc := ⟨.vmem, 7, rfl⟩
abbrev cc1_stg5_0 : Ref sig .tc := ⟨.vmem, 8, rfl⟩
abbrev cc1_stg5_1 : Ref sig .tc := ⟨.vmem, 9, rfl⟩
abbrev cc1_stg6_0 : Ref sig .tc := ⟨.vmem, 10, rfl⟩
abbrev cc1_stg0_0 : Ref sig .tc := ⟨.smem, 0, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12
abbrev cc1_sem5_1 : DmaSem sig := 13
abbrev cc1_sem6_0 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let v3 : BitVec 32 := Scalar.extui v2
  let c0_i32 : BitVec 32 := 0#32
  let v4 : BitVec 1 := Scalar.cmpi .ne v3 c0_i32
  v4

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v5 : BitVec 32 := Scalar.muli v1 c8_i32
  ![v5.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v5 : BitVec 32 := Scalar.muli v1 c8_i32
  let c0_i32_4_r1 : BitVec 32 := 0#32
  ![v5.toNat, 0]
abbrev grid1 : Pipeline.Grid := ⟨1, ![4], ![false]⟩

def k1_off1 (i : grid1.Coords) (c0_i32_42 : BitVec 32) : Fin 1 → Nat :=
  let arg0 : BitVec 32 := BitVec.ofNat 32 (i 0).val
  let c2_i32 : BitVec 32 := 2#32
  let v130 : BitVec 32 := Scalar.muli arg0 c2_i32
  let v131 : BitVec 32 := Scalar.addi v130 c0_i32_42
  let v132 : Index := Scalar.indexCast v131
  ![v132.toNat]
def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc1_transform_3 (i : grid1.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .smem S8 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2x1x4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2x1x4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2x1x4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2x4096x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2x16x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S8x4096x128x3_S8x3x4096x128_0_3_1_2 : S8x4096x128x3.Transposes [0, 3, 1, 2] S8x3x4096x128
  shapeCasts_S8x4096x128_S32768x128 : S8x4096x128.ShapeCasts S32768x128
  shapeCasts_S8x16_S128 : S8x16.ShapeCasts S128
  inb_S32768x128_S32768x128_0_0 : ∀ a, (![0, 0] : Fin 2 → Nat) a + S32768x128.size a ≤ S32768x128.size a
  gathers_S32768x128_S8x128 : S32768x128.Gathers 0 S8x128
  shapeCasts_S128x128_S8x16x128 : S128x128.ShapeCasts S8x16x128
  iota_S4096x1_d0_w32 : S4096x1.Iotas .tc 32 [0]
  iota_S1x3_d1_w32 : S1x3.Iotas .tc 32 [1]
  broadcasts_S4096x1_S4096x3 : S4096x1.Broadcasts S4096x3
  broadcasts_S1x3_S4096x3 : S1x3.Broadcasts S4096x3
  natLt_1_32 : 1 < 32
  iota_S384x3_d0_w32 : S384x3.Iotas .tc 32 [0]
  iota_S384x3_d1_w32 : S384x3.Iotas .tc 32 [1]
  iota_S384x128_d0_w32 : S384x128.Iotas .tc 32 [0]
  iota_S384x128_d1_w32 : S384x128.Iotas .tc 32 [1]
  broadcasts_S384x128_S384x128 : S384x128.Broadcasts S384x128
  iota_S384x1_d0_w32 : S384x1.Iotas .tc 32 [0]
  iota_S48x3_d0_w32 : S48x3.Iotas .tc 32 [0]
  iota_S48x3_d1_w32 : S48x3.Iotas .tc 32 [1]
  inb_S2x1x4096x128_S1x1x4096x128_0_0_0_0 : ∀ a, (![0, 0, 0, 0] : Fin 4 → Nat) a + S1x1x4096x128.size a ≤ S2x1x4096x128.size a
  h_S1x1x4096x128 : 0 < S1x1x4096x128.numel
  shapeCasts_S1x1x4096x128_S4096x128 : S1x1x4096x128.ShapeCasts S4096x128
  inb_S2x4096x128_S1x4096x128_0_0_0 : ∀ a, (![0, 0, 0] : Fin 3 → Nat) a + S1x4096x128.size a ≤ S2x4096x128.size a
  h_S1x4096x128 : 0 < S1x4096x128.numel
  shapeCasts_S1x4096x128_S4096x128 : S1x4096x128.ShapeCasts S4096x128
  inb_S2x16x128_S1x16x128_0_0_0 : ∀ a, (![0, 0, 0] : Fin 3 → Nat) a + S1x16x128.size a ≤ S2x16x128.size a
  h_S1x16x128 : 0 < S1x16x128.numel
  shapeCasts_S1x16x128_S16x128 : S1x16x128.ShapeCasts S16x128
  numel1_S1 : S1.numel = 1
  concatenates_S4096x128_S4096x128_S4096x128_S4096x384_d1 : Shape.Concatenates [S4096x128, S4096x128, S4096x128] S4096x384 1
  broadcasts_S4096x1_S4096x384 : S4096x1.Broadcasts S4096x384
  slices_S4096x128_o1_0_S4095x128 : S4096x128.Slices ![1, 0] S4095x128
  slices_S4096x128_o0_0_S1x128 : S4096x128.Slices ![0, 0] S1x128
  concatenates_S4095x128_S1x128_S4096x128_d0 : Shape.Concatenates [S4095x128, S1x128] S4096x128 0
  slices_S4096x128_o2_0_S4094x128 : S4096x128.Slices ![2, 0] S4094x128
  slices_S4096x128_o0_0_S2x128 : S4096x128.Slices ![0, 0] S2x128
  concatenates_S4094x128_S2x128_S4096x128_d0 : Shape.Concatenates [S4094x128, S2x128] S4096x128 0
  slices_S4096x128_o3_0_S4093x128 : S4096x128.Slices ![3, 0] S4093x128
  slices_S4096x128_o0_0_S3x128 : S4096x128.Slices ![0, 0] S3x128
  concatenates_S4093x128_S3x128_S4096x128_d0 : Shape.Concatenates [S4093x128, S3x128] S4096x128 0
  broadcasts_S384x1_S384x16 : S384x1.Broadcasts S384x16
  concatenates_S384x16_S384x16_S384x16_S384x48_d1 : Shape.Concatenates [S384x16, S384x16, S384x16] S384x48 1
  shapeCasts_S4096x3_S1x4096x3 : S4096x3.ShapeCasts S1x4096x3
  reduces_S1x4096x3_S1 : S1x4096x3.Reduces [1, 2] S1
  shapeCasts_S1_S1x1x1 : S1.ShapeCasts S1x1x1
  inpos_S1x1x1_p0_0_0 : ∀ a, (![0, 0, 0] : Fin 3 → Nat) a < S1x1x1.size a
  inb_S2x1x4096x128_S1x1x4096x128_1_0_0_0 : ∀ a, (![1, 0, 0, 0] : Fin 4 → Nat) a + S1x1x4096x128.size a ≤ S2x1x4096x128.size a
  inb_S2x4096x128_S1x4096x128_1_0_0 : ∀ a, (![1, 0, 0] : Fin 3 → Nat) a + S1x4096x128.size a ≤ S2x4096x128.size a
  inb_S2x16x128_S1x16x128_1_0_0 : ∀ a, (![1, 0, 0] : Fin 3 → Nat) a + S1x16x128.size a ≤ S2x16x128.size a
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  dot_S4096x384_S384x3_S4096x3_1_0_0_1_n_n_wf : DotDims.WF S4096x384 S384x3 S4096x3 [1] [0] [0] [1] [] []
  dot_S384x128_S16x128_S384x16_1_1_0_0_n_n_wf : DotDims.WF S384x128 S16x128 S384x16 [1] [1] [0] [0] [] []
  dot_S4096x384_S384x48_S4096x48_1_0_0_1_n_n_wf : DotDims.WF S4096x384 S384x48 S4096x48 [1] [0] [0] [1] [] []
  dot_S4096x48_S48x3_S4096x3_1_0_0_1_n_n_wf : DotDims.WF S4096x48 S48x3 S4096x3 [1] [0] [0] [1] [] []
  hcc0_scratch2 : 0 + S_.numel ≤ 15
  hcc0_scoped0 : 1 + S_.numel ≤ 15
  hcc0_scoped1 : 2 + S_.numel ≤ 15
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (k0_h1 : k0_cond1 i = 1#1), ∀ a, (k0_off1 i) a + S8.size a ≤ S128.size a
  k0_off2_inb : ∀ i : grid0.Coords, ∀ (k0_h1 : k0_cond1 i = 1#1), ∀ a, (k0_off2 i) a + S8x128.size a ≤ S128x128.size a
  hrank1 : 0 < grid1.rank
  k1_off1_inb : ∀ i : grid1.Coords, ∀ (r : Fin 2), ∀ a, (k1_off1 i (BitVec.ofNat 32 r.val)) a + S1.size a ≤ S8.size a
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S8.size a ≤ S8.size a
  hwx1_0 : ∀ i : grid1.Coords, EltTy.bits .i32 = 32 ∨ (Rect.block (s := S8) S8.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x1x4096x128.size a ≤ S8x3x4096x128.size a
  hwx1_1 : ∀ i : grid1.Coords, EltTy.bits .f32 = 32 ∨ (Rect.block (s := S8x3x4096x128) S2x1x4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2x1x4096x128.size a ≤ S8x3x4096x128.size a
  hwx1_2 : ∀ i : grid1.Coords, EltTy.bits .f32 = 32 ∨ (Rect.block (s := S8x3x4096x128) S2x1x4096x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2x1x4096x128.size a ≤ S8x3x4096x128.size a
  hwx1_3 : ∀ i : grid1.Coords, EltTy.bits .f32 = 32 ∨ (Rect.block (s := S8x3x4096x128) S2x1x4096x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2x4096x128.size a ≤ S8x4096x128.size a
  hwx1_4 : ∀ i : grid1.Coords, EltTy.bits .f32 = 32 ∨ (Rect.block (s := S8x4096x128) S2x4096x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2x16x128.size a ≤ S8x16x128.size a
  hwx1_5 : ∀ i : grid1.Coords, EltTy.bits .f32 = 32 ∨ (Rect.block (s := S8x16x128) S2x16x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1
def dot_S4096x384_S384x3_S4096x3_1_0_0_1_n_n : DotDims S4096x384 S384x3 S4096x3 where
  lhsContracting := [1]
  rhsContracting := [0]
  lhsNonContracting := [0]
  rhsNonContracting := [1]
  lhsBatch := []
  rhsBatch := []
  wf := dot_S4096x384_S384x3_S4096x3_1_0_0_1_n_n_wf
def dot_S384x128_S16x128_S384x16_1_1_0_0_n_n : DotDims S384x128 S16x128 S384x16 where
  lhsContracting := [1]
  rhsContracting := [1]
  lhsNonContracting := [0]
  rhsNonContracting := [0]
  lhsBatch := []
  rhsBatch := []
  wf := dot_S384x128_S16x128_S384x16_1_1_0_0_n_n_wf
def dot_S4096x384_S384x48_S4096x48_1_0_0_1_n_n : DotDims S4096x384 S384x48 S4096x48 where
  lhsContracting := [1]
  rhsContracting := [0]
  lhsNonContracting := [0]
  rhsNonContracting := [1]
  lhsBatch := []
  rhsBatch := []
  wf := dot_S4096x384_S384x48_S4096x48_1_0_0_1_n_n_wf
def dot_S4096x48_S48x3_S4096x3_1_0_0_1_n_n : DotDims S4096x48 S48x3 S4096x3 where
  lhsContracting := [1]
  rhsContracting := [0]
  lhsNonContracting := [0]
  rhsNonContracting := [1]
  lhsBatch := []
  rhsBatch := []
  wf := dot_S4096x48_S48x3_S4096x3_1_0_0_1_n_n_wf

abbrev win1_0 : Pipeline.Window sig grid1 :=
  Pipeline.Window.ofSpec (Memref.whole main_arg2) S8.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2x1x4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S2x1x4096x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S2x1x4096x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg0) S2x4096x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v4) S2x16x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v5) S1x1.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S8x4096x128 : Shape := ⟨3, ![8, 4096, 128]⟩
abbrev S8x4096x128x3 : Shape := ⟨4, ![8, 4096, 128, 3]⟩
abbrev S8 : Shape := ⟨1, ![8]⟩
abbrev S8x16 : Shape := ⟨2, ![8, 16]⟩
abbrev S4096 : Shape := ⟨1, ![4096]⟩
abbrev S1x4096 : Shape := ⟨2, ![1, 4096]⟩
abbrev S8x1 : Shape := ⟨2, ![8, 1]⟩
abbrev S8x4096 : Shape := ⟨2, ![8, 4096]⟩
abbrev S32768x128 : Shape := ⟨2, ![32768, 128]⟩
abbrev S_ : Shape := ⟨0, ![]⟩
abbrev S8x16x1 : Shape := ⟨3, ![8, 16, 1]⟩
abbrev S1 : Shape := ⟨1, ![1]⟩
abbrev S1x1x1 : Shape := ⟨3, ![1, 1, 1]⟩
abbrev S8x16x128 : Shape := ⟨3, ![8, 16, 128]⟩
abbrev S8x4096x1x1 : Shape := ⟨4, ![8, 4096, 1, 1]⟩
abbrev S8x4095x128x1 : Shape := ⟨4, ![8, 4095, 128, 1]⟩
abbrev S8x4095x128 : Shape := ⟨3, ![8, 4095, 128]⟩
abbrev S8x4095 : Shape := ⟨2, ![8, 4095]⟩
abbrev S8x4095x16 : Shape := ⟨3, ![8, 4095, 16]⟩
abbrev S8x4095x1 : Shape := ⟨3, ![8, 4095, 1]⟩
abbrev S8x4095x17 : Shape := ⟨3, ![8, 4095, 17]⟩
abbrev S8x4094x128x1 : Shape := ⟨4, ![8, 4094, 128, 1]⟩
abbrev S8x4094x128 : Shape := ⟨3, ![8, 4094, 128]⟩
abbrev S8x4094 : Shape := ⟨2, ![8, 4094]⟩
abbrev S8x4094x16 : Shape := ⟨3, ![8, 4094, 16]⟩
abbrev S8x4094x1 : Shape := ⟨3, ![8, 4094, 1]⟩
abbrev S8x4094x17 : Shape := ⟨3, ![8, 4094, 17]⟩
abbrev S8x4093x128x1 : Shape := ⟨4, ![8, 4093, 128, 1]⟩
abbrev S8x4093x128 : Shape := ⟨3, ![8, 4093, 128]⟩
abbrev S8x4093 : Shape := ⟨2, ![8, 4093]⟩
abbrev S8x4093x16 : Shape := ⟨3, ![8, 4093, 16]⟩
abbrev S8x4093x1 : Shape := ⟨3, ![8, 4093, 1]⟩
abbrev S8x4093x17 : Shape := ⟨3, ![8, 4093, 17]⟩
abbrev S3 : Shape := ⟨1, ![3]⟩

abbrev nBuf : Space → Nat
  | .hbm => 139
  | .vmem => 0
  | .smem => 0
  | _ => 0

abbrev hbmTy0_0 (i : Nat) : BufTy := match i % 128 with
  | 0 => ⟨S8x4096x128, .f32⟩
  | 1 => ⟨S8x4096x128x3, .f32⟩
  | 2 => ⟨S8, .i32⟩
  | 3 => ⟨S8x16, .i32⟩
  | 4 => ⟨S4096, .i32⟩
  | 5 => ⟨S1x4096, .i32⟩
  | 6 => ⟨S8x1, .i32⟩
  | 7 => ⟨S8x4096, .i32⟩
  | 8 => ⟨S8x4096, .i32⟩
  | 9 => ⟨S8x4096, .i1⟩
  | 10 => ⟨S8x4096, .f32⟩
  | 11 => ⟨S32768x128, .f32⟩
  | 12 => ⟨S_, .i32⟩
  | 13 => ⟨S8x16, .i32⟩
  | 14 => ⟨S8x16, .i1⟩
  | 15 => ⟨S_, .i32⟩
  | 16 => ⟨S8x16, .i32⟩
  | 17 => ⟨S8x16, .i32⟩
  | 18 => ⟨S8x16, .i32⟩
  | 19 => ⟨S8x16x1, .i32⟩
  | 20 => ⟨S1, .i32⟩
  | 21 => ⟨S_, .i32⟩
  | 22 => ⟨S8x16x1, .i32⟩
  | 23 => ⟨S8x16x1, .i1⟩
  | 24 => ⟨S1x1x1, .i32⟩
  | 25 => ⟨S8x16x1, .i32⟩
  | 26 => ⟨S8x16x1, .i1⟩
  | 27 => ⟨S8x16x1, .i1⟩
  | 28 => ⟨S_, .i1⟩
  | 29 => ⟨S8x16, .i1⟩
  | 30 => ⟨S8x16x128, .f32⟩
  | 31 => ⟨S8x16x128, .i1⟩
  | 32 => ⟨S_, .f32⟩
  | 33 => ⟨S8x16x128, .f32⟩
  | 34 => ⟨S8x16x128, .f32⟩
  | 35 => ⟨S8x4096x1x1, .f32⟩
  | 36 => ⟨S8x4096x128x3, .f32⟩
  | 37 => ⟨S8x4096x128x3, .f32⟩
  | 38 => ⟨S8x4095x128x1, .f32⟩
  | 39 => ⟨S8x4095x128, .f32⟩
  | 40 => ⟨S8x4095x128, .f32⟩
  | 41 => ⟨S8x4095x128, .f32⟩
  | 42 => ⟨S_, .f32⟩
  | 43 => ⟨S8x4095, .f32⟩
  | 44 => ⟨S8x4095x16, .f32⟩
  | 45 => ⟨S8x4095x1, .f32⟩
  | 46 => ⟨S8x4095x17, .f32⟩
  | 47 => ⟨S_, .f32⟩
  | 48 => ⟨S8x4095, .f32⟩
  | 49 => ⟨S_, .f32⟩
  | 50 => ⟨S8x4095, .f32⟩
  | 51 => ⟨S8x4095, .f32⟩
  | 52 => ⟨S8x4095x1, .f32⟩
  | 53 => ⟨S8x4095x17, .f32⟩
  | 54 => ⟨S8x4095x17, .f32⟩
  | 55 => ⟨S8x4095x17, .f32⟩
  | 56 => ⟨S_, .f32⟩
  | 57 => ⟨S8x4095, .f32⟩
  | 58 => ⟨S8x4095x1, .f32⟩
  | 59 => ⟨S8x4095x1, .f32⟩
  | 60 => ⟨S8x4095x17, .f32⟩
  | 61 => ⟨S8x4095x17, .f32⟩
  | 62 => ⟨S8x4095x1, .f32⟩
  | 63 => ⟨S8x4095, .f32⟩
  | 64 => ⟨S_, .f32⟩
  | 65 => ⟨S_, .f32⟩
  | 66 => ⟨S_, .f32⟩
  | 67 => ⟨S_, .f32⟩
  | 68 => ⟨S_, .f32⟩
  | 69 => ⟨S8x4094x128x1, .f32⟩
  | 70 => ⟨S8x4094x128, .f32⟩
  | 71 => ⟨S8x4094x128, .f32⟩
  | 72 => ⟨S8x4094x128, .f32⟩
  | 73 => ⟨S_, .f32⟩
  | 74 => ⟨S8x4094, .f32⟩
  | 75 => ⟨S8x4094x16, .f32⟩
  | 76 => ⟨S8x4094x1, .f32⟩
  | 77 => ⟨S8x4094x17, .f32⟩
  | 78 => ⟨S_, .f32⟩
  | 79 => ⟨S8x4094, .f32⟩
  | 80 => ⟨S_, .f32⟩
  | 81 => ⟨S8x4094, .f32⟩
  | 82 => ⟨S8x4094, .f32⟩
  | 83 => ⟨S8x4094x1, .f32⟩
  | 84 => ⟨S8x4094x17, .f32⟩
  | 85 => ⟨S8x4094x17, .f32⟩
  | 86 => ⟨S8x4094x17, .f32⟩
  | 87 => ⟨S_, .f32⟩
  | 88 => ⟨S8x4094, .f32⟩
  | 89 => ⟨S8x4094x1, .f32⟩
  | 90 => ⟨S8x4094x1, .f32⟩
  | 91 => ⟨S8x4094x17, .f32⟩
  | 92 => ⟨S8x4094x17, .f32⟩
  | 93 => ⟨S8x4094x1, .f32⟩
  | 94 => ⟨S8x4094, .f32⟩
  | 95 => ⟨S_, .f32⟩
  | 96 => ⟨S_, .f32⟩
  | 97 => ⟨S_, .f32⟩
  | 98 => ⟨S_, .f32⟩
  | 99 => ⟨S_, .f32⟩
  | 100 => ⟨S8x4093x128x1, .f32⟩
  | 101 => ⟨S8x4093x128, .f32⟩
  | 102 => ⟨S8x4093x128, .f32⟩
  | 103 => ⟨S8x4093x128, .f32⟩
  | 104 => ⟨S_, .f32⟩
  | 105 => ⟨S8x4093, .f32⟩
  | 106 => ⟨S8x4093x16, .f32⟩
  | 107 => ⟨S8x4093x1, .f32⟩
  | 108 => ⟨S8x4093x17, .f32⟩
  | 109 => ⟨S_, .f32⟩
  | 110 => ⟨S8x4093, .f32⟩
  | 111 => ⟨S_, .f32⟩
  | 112 => ⟨S8x4093, .f32⟩
  | 113 => ⟨S8x4093, .f32⟩
  | 114 => ⟨S8x4093x1, .f32⟩
  | 115 => ⟨S8x4093x17, .f32⟩
  | 116 => ⟨S8x4093x17, .f32⟩
  | 117 => ⟨S8x4093x17, .f32⟩
  | 118 => ⟨S_, .f32⟩
  | 119 => ⟨S8x4093, .f32⟩
  | 120 => ⟨S8x4093x1, .f32⟩
  | 121 => ⟨S8x4093x1, .f32⟩
  | 122 => ⟨S8x4093x17, .f32⟩
  | 123 => ⟨S8x4093x17, .f32⟩
  | 124 => ⟨S8x4093x1, .f32⟩
  | 125 => ⟨S8x4093, .f32⟩
  | 126 => ⟨S_, .f32⟩
  | 127 => ⟨S_, .f32⟩
  | _ => ⟨S8x4096x128, .f32⟩

abbrev hbmTy0_1 (i : Nat) : BufTy := match i % 128 with
  | 0 => ⟨S_, .f32⟩
  | 1 => ⟨S_, .f32⟩
  | 2 => ⟨S_, .f32⟩
  | 3 => ⟨S1, .f32⟩
  | 4 => ⟨S1, .f32⟩
  | 5 => ⟨S1, .f32⟩
  | 6 => ⟨S3, .f32⟩
  | 7 => ⟨S_, .f32⟩
  | 8 => ⟨S_, .f32⟩
  | 9 => ⟨S_, .f32⟩
  | 10 => ⟨S_, .f32⟩
  | _ => ⟨S8x4096x128, .f32⟩

abbrev hbmTy (i : Nat) : BufTy := match i / 128 with
  | 0 => hbmTy0_0 i
  | 1 => hbmTy0_1 i
  | _ => ⟨S8x4096x128, .f32⟩

abbrev bufTy : (tb : Table) → Fin (tcTables nBuf tb) → BufTy
  | .hbm, ⟨i, _⟩ => hbmTy i
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_call1_cst : Ref sig .tc := ⟨.hbm, 47, rfl⟩
abbrev main_call1_v0 : Ref sig .tc := ⟨.hbm, 48, rfl⟩
abbrev main_call1_cst_0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_v6 : Ref sig .tc := ⟨.hbm, 55, rfl⟩
abbrev main_call1_cst_1 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_cst_0 : Ref sig .tc := ⟨.hbm, 64, rfl⟩
abbrev main_v23 : Ref sig .tc := ⟨.hbm, 65, rfl⟩
abbrev main_cst_1 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_cst_2 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_call2_cst : Ref sig .tc := ⟨.hbm, 78, rfl⟩
abbrev main_call2_v0 : Ref sig .tc := ⟨.hbm, 79, rfl⟩
abbrev main_call2_cst_0 : Ref sig .tc := ⟨.hbm, 80, rfl⟩
abbrev main_call2_v1 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_v5 : Ref sig .tc := ⟨.hbm, 85, rfl⟩
abbrev main_call2_v6 : Ref sig .tc := ⟨.hbm, 86, rfl⟩
abbrev main_call2_cst_1 : Ref sig .tc := ⟨.hbm, 87, rfl⟩
abbrev main_call2_v7 : Ref sig .tc := ⟨.hbm, 88, rfl⟩
abbrev main_call2_v8 : Ref sig .tc := ⟨.hbm, 89, rfl⟩
abbrev main_call2_v9 : Ref sig .tc := ⟨.hbm, 90, rfl⟩
abbrev main_call2_v10 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_cst_3 : Ref sig .tc := ⟨.hbm, 95, rfl⟩
abbrev main_v37 : Ref sig .tc := ⟨.hbm, 96, rfl⟩
abbrev main_cst_4 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_cst_5 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_call3_cst : Ref sig .tc := ⟨.hbm, 109, rfl⟩
abbrev main_call3_v0 : Ref sig .tc := ⟨.hbm, 110, rfl⟩
abbrev main_call3_cst_0 : Ref sig .tc := ⟨.hbm, 111, rfl⟩
abbrev main_call3_v1 : Ref sig .tc := ⟨.hbm, 112, rfl⟩
abbrev main_call3_v2 : Ref sig .tc := ⟨.hbm, 113, rfl⟩
abbrev main_call3_v3 : Ref sig .tc := ⟨.hbm, 114, rfl⟩
abbrev main_call3_v4 : Ref sig .tc := ⟨.hbm, 115, rfl⟩
abbrev main_call3_v5 : Ref sig .tc := ⟨.hbm, 116, rfl⟩
abbrev main_call3_v6 : Ref sig .tc := ⟨.hbm, 117, rfl⟩
abbrev main_call3_cst_1 : Ref sig .tc := ⟨.hbm, 118, rfl⟩
abbrev main_call3_v7 : Ref sig .tc := ⟨.hbm, 119, rfl⟩
abbrev main_call3_v8 : Ref sig .tc := ⟨.hbm, 120, rfl⟩
abbrev main_call3_v9 : Ref sig .tc := ⟨.hbm, 121, rfl⟩
abbrev main_call3_v10 : Ref sig .tc := ⟨.hbm, 122, rfl⟩
abbrev main_v48 : Ref sig .tc := ⟨.hbm, 123, rfl⟩
abbrev main_v49 : Ref sig .tc := ⟨.hbm, 124, rfl⟩
abbrev main_v50 : Ref sig .tc := ⟨.hbm, 125, rfl⟩
abbrev main_cst_6 : Ref sig .tc := ⟨.hbm, 126, rfl⟩
abbrev main_v51 : Ref sig .tc := ⟨.hbm, 127, rfl⟩
abbrev main_cst_7 : Ref sig .tc := ⟨.hbm, 128, rfl⟩
abbrev main_v52 : Ref sig .tc := ⟨.hbm, 129, rfl⟩
abbrev main_v53 : Ref sig .tc := ⟨.hbm, 130, rfl⟩
abbrev main_v54 : Ref sig .tc := ⟨.hbm, 131, rfl⟩
abbrev main_v55 : Ref sig .tc := ⟨.hbm, 132, rfl⟩
abbrev main_v56 : Ref sig .tc := ⟨.hbm, 133, rfl⟩
abbrev main_v57 : Ref sig .tc := ⟨.hbm, 134, rfl⟩
abbrev main_cst_8 : Ref sig .tc := ⟨.hbm, 135, rfl⟩
abbrev main_v58 : Ref sig .tc := ⟨.hbm, 136, rfl⟩
abbrev main_cst_9 : Ref sig .tc := ⟨.hbm, 137, rfl⟩
abbrev main_v59 : Ref sig .tc := ⟨.hbm, 138, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S8_S8x1_0 : S8.BroadcastsInDim S8x1 (![0] : Fin 1 → Fin S8x1.rank)
  bcast_S1x4096_S8x4096_0_1 : S1x4096.BroadcastsInDim S8x4096 (![0, 1] : Fin 2 → Fin S8x4096.rank)
  bcast_S8x1_S8x4096_0_1 : S8x1.BroadcastsInDim S8x4096 (![0, 1] : Fin 2 → Fin S8x4096.rank)
  shapeCasts_S8x4096x128_S32768x128 : S8x4096x128.ShapeCasts S32768x128
  bcast_S_S8x16 : S_.BroadcastsInDim S8x16 (![] : Fin 0 → Fin S8x16.rank)
  bcast_S8x16_S8x16x1_0_1 : S8x16.BroadcastsInDim S8x16x1 (![0, 1] : Fin 2 → Fin S8x16x1.rank)
  bcast_S_S8x16x1 : S_.BroadcastsInDim S8x16x1 (![] : Fin 0 → Fin S8x16x1.rank)
  bcast_S1_S1x1x1_2 : S1.BroadcastsInDim S1x1x1 (![2] : Fin 1 → Fin S1x1x1.rank)
  bcast_S1x1x1_S8x16x1_0_1_2 : S1x1x1.BroadcastsInDim S8x16x1 (![0, 1, 2] : Fin 3 → Fin S8x16x1.rank)
  reducesTo_S8x16x1_S8x16_d2 : S8x16x1.ReducesTo [2] S8x16
  h_S_ : 0 < S_.numel
  bcast_S8x16_S8x16x128_0_1 : S8x16.BroadcastsInDim S8x16x128 (![0, 1] : Fin 2 → Fin S8x16x128.rank)
  bcast_S_S8x16x128 : S_.BroadcastsInDim S8x16x128 (![] : Fin 0 → Fin S8x16x128.rank)
  bcast_S8x4096_S8x4096x1x1_0_1 : S8x4096.BroadcastsInDim S8x4096x1x1 (![0, 1] : Fin 2 → Fin S8x4096x1x1.rank)
  bcast_S8x4096x1x1_S8x4096x128x3_0_1_2_3 : S8x4096x1x1.BroadcastsInDim S8x4096x128x3 (![0, 1, 2, 3] : Fin 4 → Fin S8x4096x128x3.rank)
  slices_S8x4096x128x3_S8x4095x128x1_0_0_0_0 : S8x4096x128x3.Slices ![0, 0, 0, 0] S8x4095x128x1
  shapeCasts_S8x4095x128x1_S8x4095x128 : S8x4095x128x1.ShapeCasts S8x4095x128
  slices_S8x4096x128_S8x4095x128_0_1_0 : S8x4096x128.Slices ![0, 1, 0] S8x4095x128
  reducesTo_S8x4095x128_S8x4095_d2 : S8x4095x128.ReducesTo [2] S8x4095
  bcast_S8x4095_S8x4095x1_0_1 : S8x4095.BroadcastsInDim S8x4095x1 (![0, 1] : Fin 2 → Fin S8x4095x1.rank)
  concatenates_S8x4095x1_S8x4095x16_S8x4095x17_d2 : Shape.Concatenates [S8x4095x1, S8x4095x16] S8x4095x17 2
  reducesTo_S8x4095x17_S8x4095_d2 : S8x4095x17.ReducesTo [2] S8x4095
  bcast_S_S8x4095 : S_.BroadcastsInDim S8x4095 (![] : Fin 0 → Fin S8x4095.rank)
  bcast_S8x4095x1_S8x4095x17_0_1_2 : S8x4095x1.BroadcastsInDim S8x4095x17 (![0, 1, 2] : Fin 3 → Fin S8x4095x17.rank)
  slices_S8x4095x17_S8x4095x1_0_0_0 : S8x4095x17.Slices ![0, 0, 0] S8x4095x1
  shapeCasts_S8x4095x1_S8x4095 : S8x4095x1.ShapeCasts S8x4095
  reducesTo_S8x4095_S_d0_1 : S8x4095.ReducesTo [0, 1] S_
  slices_S8x4096x128x3_S8x4094x128x1_0_0_0_1 : S8x4096x128x3.Slices ![0, 0, 0, 1] S8x4094x128x1
  shapeCasts_S8x4094x128x1_S8x4094x128 : S8x4094x128x1.ShapeCasts S8x4094x128
  slices_S8x4096x128_S8x4094x128_0_2_0 : S8x4096x128.Slices ![0, 2, 0] S8x4094x128
  reducesTo_S8x4094x128_S8x4094_d2 : S8x4094x128.ReducesTo [2] S8x4094
  bcast_S8x4094_S8x4094x1_0_1 : S8x4094.BroadcastsInDim S8x4094x1 (![0, 1] : Fin 2 → Fin S8x4094x1.rank)
  concatenates_S8x4094x1_S8x4094x16_S8x4094x17_d2 : Shape.Concatenates [S8x4094x1, S8x4094x16] S8x4094x17 2
  reducesTo_S8x4094x17_S8x4094_d2 : S8x4094x17.ReducesTo [2] S8x4094
  bcast_S_S8x4094 : S_.BroadcastsInDim S8x4094 (![] : Fin 0 → Fin S8x4094.rank)
  bcast_S8x4094x1_S8x4094x17_0_1_2 : S8x4094x1.BroadcastsInDim S8x4094x17 (![0, 1, 2] : Fin 3 → Fin S8x4094x17.rank)
  slices_S8x4094x17_S8x4094x1_0_0_0 : S8x4094x17.Slices ![0, 0, 0] S8x4094x1
  shapeCasts_S8x4094x1_S8x4094 : S8x4094x1.ShapeCasts S8x4094
  reducesTo_S8x4094_S_d0_1 : S8x4094.ReducesTo [0, 1] S_
  slices_S8x4096x128x3_S8x4093x128x1_0_0_0_2 : S8x4096x128x3.Slices ![0, 0, 0, 2] S8x4093x128x1
  shapeCasts_S8x4093x128x1_S8x4093x128 : S8x4093x128x1.ShapeCasts S8x4093x128
  slices_S8x4096x128_S8x4093x128_0_3_0 : S8x4096x128.Slices ![0, 3, 0] S8x4093x128
  reducesTo_S8x4093x128_S8x4093_d2 : S8x4093x128.ReducesTo [2] S8x4093
  bcast_S8x4093_S8x4093x1_0_1 : S8x4093.BroadcastsInDim S8x4093x1 (![0, 1] : Fin 2 → Fin S8x4093x1.rank)
  concatenates_S8x4093x1_S8x4093x16_S8x4093x17_d2 : Shape.Concatenates [S8x4093x1, S8x4093x16] S8x4093x17 2
  reducesTo_S8x4093x17_S8x4093_d2 : S8x4093x17.ReducesTo [2] S8x4093
  bcast_S_S8x4093 : S_.BroadcastsInDim S8x4093 (![] : Fin 0 → Fin S8x4093.rank)
  bcast_S8x4093x1_S8x4093x17_0_1_2 : S8x4093x1.BroadcastsInDim S8x4093x17 (![0, 1, 2] : Fin 3 → Fin S8x4093x17.rank)
  slices_S8x4093x17_S8x4093x1_0_0_0 : S8x4093x17.Slices ![0, 0, 0] S8x4093x1
  shapeCasts_S8x4093x1_S8x4093 : S8x4093x1.ShapeCasts S8x4093
  reducesTo_S8x4093_S_d0_1 : S8x4093.ReducesTo [0, 1] S_
  bcast_S_S1 : S_.BroadcastsInDim S1 (![] : Fin 0 → Fin S1.rank)
  concatenates_S1_S1_S1_S3_d0 : Shape.Concatenates [S1, S1, S1] S3 0
  reducesTo_S3_S_d0 : S3.ReducesTo [0] S_
  gather_S32768x128_S8x16x1_S8x16x128_2_0_n_n_0_2_1128_wf : GatherDims.WF S32768x128 S8x16x1 S8x16x128 [2] [0] [] [0] [] 2 ![1, 128]
  dot_S8x4095x128_S8x16x128_S8x4095x16_2_2_1_1_0_0_wf : DotDims.WF S8x4095x128 S8x16x128 S8x4095x16 [2] [2] [1] [1] [0] [0]
  dot_S8x4094x128_S8x16x128_S8x4094x16_2_2_1_1_0_0_wf : DotDims.WF S8x4094x128 S8x16x128 S8x4094x16 [2] [2] [1] [1] [0] [0]
  dot_S8x4093x128_S8x16x128_S8x4093x16_2_2_1_1_0_0_wf : DotDims.WF S8x4093x128 S8x16x128 S8x4093x16 [2] [2] [1] [1] [0] [0]

variable [Facts₀]

def gather_S32768x128_S8x16x1_S8x16x128_2_0_n_n_0_2_1128 : GatherDims S32768x128 S8x16x1 S8x16x128 where
  offsetDims := [2]
  collapsedSliceDims := [0]
  operandBatchingDims := []
  startIndicesBatchingDims := []
  startIndexMap := [0]
  indexVectorDim := 2
  sliceSizes := ![1, 128]
  wf := gather_S32768x128_S8x16x1_S8x16x128_2_0_n_n_0_2_1128_wf
def dot_S8x4095x128_S8x16x128_S8x4095x16_2_2_1_1_0_0 : DotDims S8x4095x128 S8x16x128 S8x4095x16 where
  lhsContracting := [2]
  rhsContracting := [2]
  lhsNonContracting := [1]
  rhsNonContracting := [1]
  lhsBatch := [0]
  rhsBatch := [0]
  wf := dot_S8x4095x128_S8x16x128_S8x4095x16_2_2_1_1_0_0_wf
def dot_S8x4094x128_S8x16x128_S8x4094x16_2_2_1_1_0_0 : DotDims S8x4094x128 S8x16x128 S8x4094x16 where
  lhsContracting := [2]
  rhsContracting := [2]
  lhsNonContracting := [1]
  rhsNonContracting := [1]
  lhsBatch := [0]
  rhsBatch := [0]
  wf := dot_S8x4094x128_S8x16x128_S8x4094x16_2_2_1_1_0_0_wf
def dot_S8x4093x128_S8x16x128_S8x4093x16_2_2_1_1_0_0 : DotDims S8x4093x128 S8x16x128 S8x4093x16 where
  lhsContracting := [2]
  rhsContracting := [2]
  lhsNonContracting := [1]
  rhsNonContracting := [1]
  lhsBatch := [0]
  rhsBatch := [0]
  wf := dot_S8x4093x128_S8x16x128_S8x4093x16_2_2_1_1_0_0_wf

class Facts : Prop extends Facts₀ where

variable [Facts]
-- ==== Proof.Spec.lean ====
/- The value both programs compute: one real number of the decoded inputs. -/
import Idealize.ShloMosaic.Lib.ValueIdx
import Idealize.ShloMosaic.PureOps.Ideal

noncomputable section

namespace Cert.Spec

open Idealize.ShloMosaic Idealize.ShloMosaic.ValueIdx

section Seq

variable (x : Fin 3 → Fin 4096 → Fin 128 → ℝ) (bse : Fin 4096 → Fin 128 → ℝ) (ng : Fin 16 → Fin 128 → ℝ) (ℓ : ℕ)

def msk (t : Fin 4096) : ℝ := if t.val < ℓ then 1 else 0

def ce (s : Fin 3) (t : Fin 4096) (e : Fin 128) : ℝ := x s t e * msk ℓ t

def nxt (s : Fin 3) (t : Fin 4096) : Fin 4096 := ⟨(t.val + s.val + 1) % 4096, Nat.mod_lt _ (by norm_num)⟩

def pos (s : Fin 3) (t : Fin 4096) : ℝ := ∑ e : Fin 128, ce x ℓ s t e * bse (nxt s t) e

def npred (s : Fin 3) (t : Fin 4096) (n : Fin 16) : ℝ := ∑ e : Fin 128, ce x ℓ s t e * ng n e

/-- A row's loss at a step: minus the log-softmax of the positive logit among the seventeen. -/
def term (s : Fin 3) (t : Fin 4096) : ℝ :=
  Real.log (Real.exp (pos x bse ℓ s t) + ∑ n : Fin 16, Real.exp (npred x ng ℓ s t n)) - pos x bse ℓ s t

def logit (s : Fin 3) (t : Fin 4096) (j : Fin 17) : ℝ :=
  Fin.cases (pos x bse ℓ s t) (fun n => npred x ng ℓ s t n) j

def wgt (s : Fin 3) : ℝ := 1 / (24 * (4095 - (s.val : ℝ)))

/-- One sequence's share of the mean over steps of the mean row loss; only rows with a row `s + 1` ahead count. -/
def seqLoss : ℝ :=
  ∑ s : Fin 3, ∑ t : Fin 4096, if t.val + s.val + 1 < 4096 then term x bse ng ℓ s t * wgt s else 0

end Seq

variable (base : Fin 8 → Fin 4096 → Fin 128 → ℝ) (mce : Fin 8 → Fin 4096 → Fin 128 → Fin 3 → ℝ)
  (len : Fin 8 → ℕ) (pick : Fin 8 → Fin 16 → Fin 8 × Fin 4096)

def loss : ℝ :=
  ∑ b : Fin 8, seqLoss (fun s t e => mce b t e s) (base b) (fun n e => base (pick b n).1 (pick b n).2 e) (len b)

def real3 (a : (⟨3, ![8, 4096, 128]⟩ : Shape).Idx → EReal) (b : Fin 8) (t : Fin 4096) (e : Fin 128) : ℝ := (a (ix3 b t e)).toReal
def real4 (a : (⟨4, ![8, 4096, 128, 3]⟩ : Shape).Idx → EReal) (b : Fin 8) (t : Fin 4096) (e : Fin 128) (s : Fin 3) : ℝ :=
  (a (ix4 b t e s)).toReal

def lenOf (a : (⟨1, ![8]⟩ : Shape).Idx → BitVec 32) (b : Fin 8) : ℕ := (a (ix1 b)).toNat

/-- Sample id `v` is row `v` of the flattened table: sequence `v / 4096`, row `v % 4096`. -/
def pickOf (a : (⟨2, ![8, 16]⟩ : Shape).Idx → BitVec 32) (b : Fin 8) (n : Fin 16) : Fin 8 × Fin 4096 :=
  (⟨(a (ix2 b n)).toNat / 4096 % 8, Nat.mod_lt _ (by norm_num)⟩, ⟨(a (ix2 b n)).toNat % 4096, Nat.mod_lt _ (by norm_num)⟩)

def sx (a1 : (⟨4, ![8, 4096, 128, 3]⟩ : Shape).Idx → EReal) (b : Fin 8) : Fin 3 → Fin 4096 → Fin 128 → ℝ := fun s t e => real4 a1 b t e s
def sb (a0 : (⟨3, ![8, 4096, 128]⟩ : Shape).Idx → EReal) (b : Fin 8) : Fin 4096 → Fin 128 → ℝ := real3 a0 b
def sn (a0 : (⟨3, ![8, 4096, 128]⟩ : Shape).Idx → EReal) (a3 : (⟨2, ![8, 16]⟩ : Shape).Idx → BitVec 32) (b : Fin 8) : Fin 16 → Fin 128 → ℝ :=
  fun n e => real3 a0 (pickOf a3 b n).1 (pickOf a3 b n).2 e

theorem loss_eq (a0 : (⟨3, ![8, 4096, 128]⟩ : Shape).Idx → EReal) (a1 : (⟨4, ![8, 4096, 128, 3]⟩ : Shape).Idx → EReal)
    (a2 : (⟨1, ![8]⟩ : Shape).Idx → BitVec 32) (a3 : (⟨2, ![8, 16]⟩ : Shape).Idx → BitVec 32) :
    loss (real3 a0) (real4 a1) (lenOf a2) (pickOf a3) = ∑ b : Fin 8, seqLoss (sx a1 b) (sb a0 b) (sn a0 a3 b) (lenOf a2 b) := rfl

def out (a0 : (⟨3, ![8, 4096, 128]⟩ : Shape).Idx → EReal) (a1 : (⟨4, ![8, 4096, 128, 3]⟩ : Shape).Idx → EReal)
    (a2 : (⟨1, ![8]⟩ : Shape).Idx → BitVec 32) (a3 : (⟨2, ![8, 16]⟩ : Shape).Idx → BitVec 32) :
    (⟨0, ![]⟩ : Shape).Idx → EReal :=
  fun _ => ((loss (real3 a0) (real4 a1) (lenOf a2) (pickOf a3) : ℝ) : EReal)

structure Dom (a0 : (⟨3, ![8, 4096, 128]⟩ : Shape).Idx → EReal) (a1 : (⟨4, ![8, 4096, 128, 3]⟩ : Shape).Idx → EReal)
    (a2 : (⟨1, ![8]⟩ : Shape).Idx → BitVec 32) (a3 : (⟨2, ![8, 16]⟩ : Shape).Idx → BitVec 32) : Prop where
  fin0 : ∀ i, ∃ x : ℝ, a0 i = (x : EReal)
  fin1 : ∀ i, ∃ x : ℝ, a1 i = (x : EReal)
  len : ∀ i, 0 ≤ (a2 i).toInt ∧ (a2 i).toInt ≤ 4095
  ids : ∀ i, 0 ≤ (a3 i).toInt ∧ (a3 i).toInt ≤ 32767

end Cert.Spec

end
-- ==== Proof.PreDecode.lean ====
/- The precondition read back: finite floats, lengths in `[0, 4095]`, sample ids in `[0, 32767]`. -/
import proofs.«204919_g30640296690406_cont_9to1_308_17_alg».proof.Pre_input_domain
import proofs.«204919_g30640296690406_cont_9to1_308_17_alg».proof.Proof.Spec
import Idealize.ShloMosaic.Lib.ReduceAll
import Idealize.ShloMosaic.Lib.StableHlo.Predicate

noncomputable section

namespace Cert.PreDecode

open Idealize.ShloMosaic Cert.Pre_input_domain

variable [Cert.Pre_input_domain.Facts]

instance : Subsingleton S_.Idx := ⟨fun a b => funext fun d => d.elim0⟩

theorem toInt_lit0 : (0#32 : BitVec 32).toInt = 0 := by decide
theorem toInt_lit4095 : (4095#32 : BitVec 32).toInt = 4095 := by decide
theorem toInt_lit32767 : (32767#32 : BitVec 32).toInt = 32767 := by decide

def Finite {F : FTy → Type} [FloatOps F] (x : F .f32) : Prop :=
  FloatOps.cmpf (F := F) (φ := .f32) .olt (FloatOps.hostAbsf (F := F) (φ := .f32) x) (FloatOps.ofBits (F := F) .f32 0x7F800000#32) = 1#1

-- An `and`-reduction equal to one has every entry one, so each of the four tests holds at every index.
theorem pre_at {F : FTy → Type} [FloatOps F] (a0 : FVec F S8x4096x128 .f32) (a1 : FVec F S8x4096x128x3 .f32)
    (a2 : IVec S8 32) (a3 : IVec S8x16 32) (h : fn (F := F) a0 a1 a2 a3 = fun _ => 1#1) :
    (∀ i, Finite (a0 i)) ∧ (∀ i, Finite (a1 i))
      ∧ (∀ i, 0 ≤ (a2 i).toInt ∧ (a2 i).toInt ≤ 4095) ∧ (∀ i, 0 ≤ (a3 i).toInt ∧ (a3 i).toInt ≤ 32767) := by
  have e := congrFun h ValueIdx.ix0
  dsimp only [fn, fn_part1] at e
  simp only [andi, IntOp.andi_eq_one] at e
  obtain ⟨⟨⟨h0, h1⟩, h2⟩, h3⟩ := e
  have t0 := Host.reduce_andi_all _ _ _ _ _ h0
  have t1 := Host.reduce_andi_all _ _ _ _ _ h1
  have t2 := Host.reduce_andi_all _ _ _ _ _ h2
  have t3 := Host.reduce_andi_all _ _ _ _ _ h3
  simp only [cmpf, Host.absf, andi, cmpi, broadcastInDim, constant, constantI, IntOp.andi_eq_one, IntOp.cmpi_sge, IntOp.cmpi_sle,
    toInt_lit0, toInt_lit4095, toInt_lit32767] at t0 t1 t2 t3
  exact ⟨t0, t1, t2, t3⟩

theorem ofBits_inf : Ideal.ofBits .f32 0x7F800000#32 = (⊤ : EReal) := by
  simp [Ideal.ofBits, Ideal.ieee]

/-- `max x (-x) < ⊤` excludes both infinities. -/
theorem real_of_abs_lt_top (x : EReal) (hx : max x (-x) < ⊤) : ∃ r : ℝ, x = (r : EReal) := by
  induction x using EReal.rec with
  | bot => simp at hx
  | coe r => exact ⟨r, rfl⟩
  | top => simp at hx

theorem real_of_test (x : EReal) (hx : Finite (F := Ideal) x) : ∃ r : ℝ, x = (r : EReal) := by
  apply real_of_abs_lt_top
  unfold Finite at hx
  have e : FloatOps.ofBits (F := Ideal) .f32 0x7F800000#32 = (⊤ : EReal) := ofBits_inf
  rw [e] at hx
  change Ideal.cmp .olt (max x (-x)) ⊤ = 1#1 at hx
  simpa [Ideal.cmp, StableHlo.Predicate.ofBool_eq_one_iff] using hx

theorem dom_of_pre (a0 : FVec Ideal S8x4096x128 .f32) (a1 : FVec Ideal S8x4096x128x3 .f32)
    (a2 : IVec S8 32) (a3 : IVec S8x16 32) (h : fn (F := Ideal) a0 a1 a2 a3 = fun _ => 1#1) :
    Cert.Spec.Dom a0 a1 a2 a3 :=
  have p := pre_at a0 a1 a2 a3 h
  ⟨fun i => real_of_test _ (p.1 i), fun i => real_of_test _ (p.2.1 i), p.2.2.1, p.2.2.2⟩

/-- A nonnegative signed value is the unsigned one. -/
theorem toNat_le_of_toInt {w : BitVec 32} {n : ℕ} (h0 : 0 ≤ w.toInt) (hn : w.toInt ≤ n) : w.toNat ≤ n := by
  have := BitVec.toInt_pos_iff.1 h0
  rw [BitVec.toInt_eq_toNat_of_lt this] at hn
  exact_mod_cast hn

theorem toNat_ranges_of_pre {F : FTy → Type} [FloatOps F] (a0 : FVec F S8x4096x128 .f32) (a1 : FVec F S8x4096x128x3 .f32)
    (a2 : IVec S8 32) (a3 : IVec S8x16 32) (h : fn (F := F) a0 a1 a2 a3 = fun _ => 1#1) :
    (∀ i, (a2 i).toNat ≤ 4095) ∧ (∀ i, (a3 i).toNat ≤ 32767) :=
  have p := (pre_at a0 a1 a2 a3 h).2.2
  ⟨fun i => toNat_le_of_toInt (p.1 i).1 (by exact_mod_cast (p.1 i).2),
    fun i => toNat_le_of_toInt (p.2 i).1 (by exact_mod_cast (p.2 i).2)⟩

end Cert.PreDecode

end
-- ==== Proof.KSetup.lean ====
import proofs.«204919_g30640296690406_cont_9to1_308_17_alg».proof.KernelIdeal
import proofs.«204919_g30640296690406_cont_9to1_308_17_alg».proof.Proof.Gen.KernelIdeal
import proofs.«204919_g30640296690406_cont_9to1_308_17_alg».proof.Proof.Gen.KernelIdeal.Skeleton
import proofs.«204919_g30640296690406_cont_9to1_308_17_alg».proof.Proof.Gen.KernelIdeal.Launch
import proofs.«204919_g30640296690406_cont_9to1_308_17_alg».proof.Proof.Gen.KernelIdeal.Points
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic

noncomputable section

namespace Cert.KernelIdeal.KF

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (τ := τ) (sig := sig) (Ix := HIx 1) (Val := Elt F) (Name := ℕ) (U := UU) (Lvl := ℕ)).toEmb

instance EP_landsIn : (EP : Emb UP 𝕄).LandsIn (upEmb : UEmb _ 𝕄) := by unfold EP; infer_instance

end Cert.KernelIdeal.KF

end
-- ==== Proof.KTerm.lean ====
import proofs.«204919_g30640296690406_cont_9to1_308_17_alg».proof.Proof.Gen.KernelIdeal.Skeleton
import Idealize.ShloMosaic.Lib.ValueIdx

noncomputable section

namespace Cert.KernelIdeal.KT

open Cert.KernelIdeal Cert.KernelIdeal.Gen
open Idealize.ShloMosaic Idealize.ShloMosaic.ValueIdx

variable {F : FTy → Type} [FloatOps F]

def cRows : IVec S4096x1 32 := iota .tc S4096x1 32 [0] iota_S4096x1_d0_w32
def cValid : FVec F S4096x3 .f32 := k1_pay1
def cWgt : FVec F S1x3 .f32 := k1_pay2
def cSel3 : FVec F S384x3 .f32 := k1_pay3
def cRep : FVec F S384x128 .f32 :=
  k1_pay4 (iota .tc S384x128 32 [0] iota_S384x128_d0_w32) (iota .tc S384x128 32 [1] iota_S384x128_d1_w32) 128#32
def cBlk : IVec S384x1 32 := k1_pay5
def cSelN : FVec F S48x3 .f32 :=
  k1_pay7 (iota .tc S48x3 32 [0] iota_S48x3_d0_w32) (iota .tc S48x3 32 [1] iota_S48x3_d1_w32) 16#32 k1_pay6

def acc0 (xa xb xc : Vec F S1x1x4096x128 .f32) (ba : Vec F S1x4096x128 .f32) (na : Vec F S1x16x128 .f32) (len : Elt F .i32) : F .f32 :=
  k1_pay14 cWgt (k1_pay13 cRows cValid cSel3 cRep cBlk cSelN (k1_pay8 xa) (k1_pay9 xb) (k1_pay10 xc) (k1_pay11 ba) (k1_pay12 na) len)

def out1 (acc : F .f32) (xa xb xc : Vec F S1x1x4096x128 .f32) (ba : Vec F S1x4096x128 .f32) (na : Vec F S1x16x128 .f32) (len : Elt F .i32)
    (prev : Vec F S1x1 .f32) : FVec F S1x1 .f32 :=
  k1_pay19 cValid cWgt cSel3 cRep cBlk cSelN acc (k1_pay15 na) (k1_pay16 cRows xa xb xc len) (k1_pay17 ba) prev

abbrev A0 : Type := (⟨S8x4096x128, .f32⟩ : BufTy).Contents (Elt F)
abbrev A1 : Type := (⟨S8x4096x128x3, .f32⟩ : BufTy).Contents (Elt F)
abbrev A2 : Type := (⟨S8, .i32⟩ : BufTy).Contents (Elt F)
abbrev A3 : Type := (⟨S8x16, .i32⟩ : BufTy).Contents (Elt F)

def v0T (a1 : A1 (F := F)) : (⟨S8x3x4096x128, .f32⟩ : BufTy).Contents (Elt F) :=
  transpose S8x3x4096x128 [0, 3, 1, 2] a1 transposes_S8x4096x128x3_S8x3x4096x128_0_3_1_2
def v1T (a0 : A0 (F := F)) : (⟨S32768x128, .f32⟩ : BufTy).Contents (Elt F) :=
  shapeCast S32768x128 a0 shapeCasts_S8x4096x128_S32768x128
def v2T (a3 : A3 (F := F)) : (⟨S128, .i32⟩ : BufTy).Contents (Elt F) :=
  shapeCast S128 a3 shapeCasts_S8x16_S128
def v4T (g3 : (⟨S128x128, .f32⟩ : BufTy).Contents (Elt F)) : (⟨S8x16x128, .f32⟩ : BufTy).Contents (Elt F) :=
  shapeCast S8x16x128 g3 shapeCasts_S128x128_S8x16x128
def v6T (o : (⟨S1x1, .f32⟩ : BufTy).Contents (Elt F)) : (⟨S_, .f32⟩ : BufTy).Contents (Elt F) :=
  shapeCast S_ o shapeCasts_S1x1_S_

def xPiece (x : (⟨S8x3x4096x128, .f32⟩ : BufTy).Contents (Elt F)) (b : Fin 8) (s : Fin 3) : Vec F S1x1x4096x128 .f32 :=
  fun i => x (ix4 b s (i 2) (i 3))
def bPiece (a0 : A0 (F := F)) (b : Fin 8) : Vec F S1x4096x128 .f32 := fun i => a0 (ix3 b (i 1) (i 2))
def nPiece (v4 : (⟨S8x16x128, .f32⟩ : BufTy).Contents (Elt F)) (b : Fin 8) : Vec F S1x16x128 .f32 := fun i => v4 (ix3 b (i 1) (i 2))
def lenAt (a2 : A2 (F := F)) (b : Fin 8) : Elt F .i32 := a2 (ix1 b)

section Region

variable (a2 : A2 (F := F)) (x : (⟨S8x3x4096x128, .f32⟩ : BufTy).Contents (Elt F)) (a0 : A0 (F := F))
  (v4 : (⟨S8x16x128, .f32⟩ : BufTy).Contents (Elt F))

def seqA (g : Fin 4) : Fin 8 := ⟨2 * g.val, by omega⟩
def seqB (g : Fin 4) : Fin 8 := ⟨2 * g.val + 1, by omega⟩

def pointOut (g : Fin 4) (prev : Vec F S1x1 .f32) : FVec F S1x1 .f32 :=
  out1 (acc0 (xPiece x (seqA g) 0) (xPiece x (seqA g) 1) (xPiece x (seqA g) 2) (bPiece a0 (seqA g)) (nPiece v4 (seqA g)) (lenAt a2 (seqA g)))
    (xPiece x (seqB g) 0) (xPiece x (seqB g) 1) (xPiece x (seqB g) 2) (bPiece a0 (seqB g)) (nPiece v4 (seqB g)) (lenAt a2 (seqB g))
    (if g = 0 then k1_pay18 else prev)

def v5T : (⟨S1x1, .f32⟩ : BufTy).Contents (Elt F) :=
  pointOut a2 x a0 v4 3 (pointOut a2 x a0 v4 2 (pointOut a2 x a0 v4 1 (pointOut a2 x a0 v4 0 k1_pay18)))

end Region

def result (gat : (⟨S32768x128, .f32⟩ : BufTy).Contents (Elt F) → (⟨S128, .i32⟩ : BufTy).Contents (Elt F) → (⟨S128x128, .f32⟩ : BufTy).Contents (Elt F))
    (a0 : A0 (F := F)) (a1 : A1 (F := F)) (a2 : A2 (F := F)) (a3 : A3 (F := F)) : (⟨S_, .f32⟩ : BufTy).Contents (Elt F) :=
  v6T (v5T a2 (v0T a1) a0 (v4T (gat (v1T a0) (v2T a3))))

end Cert.KernelIdeal.KT

end
-- ==== Proof.KTile.lean ====
import proofs.«204919_g30640296690406_cont_9to1_308_17_alg».proof.Proof.KSetup
import proofs.«204919_g30640296690406_cont_9to1_308_17_alg».proof.Proof.KTerm

noncomputable section

namespace Cert.KernelIdeal.KF

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

def gat (tbl : (⟨S32768x128, .f32⟩ : BufTy).Contents (Elt F)) (ids : (⟨S128, .i32⟩ : BufTy).Contents (Elt F)) :
    (⟨S128x128, .f32⟩ : BufTy).Contents (Elt F) :=
  fun x => tbl (ValueIdx.ix2 (⟨(ids (ValueIdx.ix1 (x 0))).toNat % 32768, Nat.mod_lt _ (by decide)⟩ : Fin 32768) (x 1))

theorem gat_apply (tbl : (⟨S32768x128, .f32⟩ : BufTy).Contents (Elt F)) (ids : (⟨S128, .i32⟩ : BufTy).Contents (Elt F))
    (r : Fin 128) (e : Fin 128) (h : (ids (ValueIdx.ix1 r)).toNat < 32768) :
    gat tbl ids (ValueIdx.ix2 r e) = tbl (ValueIdx.ix2 ⟨(ids (ValueIdx.ix1 r)).toNat, h⟩ e) := by
  unfold gat
  congr 1
  funext a
  match a with
  | ⟨0, _⟩ => exact Fin.ext (Nat.mod_eq_of_lt h)
  | ⟨1, _⟩ => rfl

variable (m : (ℓ : Loc nD τ sig) → Buf (Elt F) ℓ)

abbrev tLoc (d : Dev nD) : Loc nD τ sig := (SparseCore.T d).loc main_v1
abbrev iLoc (d : Dev nD) : Loc nD τ sig := (SparseCore.T d).loc main_v2
abbrev oLoc (d : Dev nD) : Loc nD τ sig := (SparseCore.T d).loc main_v3
abbrev a0Loc (d : Dev nD) : Loc nD τ sig := (SparseCore.T d).loc main_arg0
abbrev a3Loc (d : Dev nD) : Loc nD τ sig := (SparseCore.T d).loc main_arg3

private abbrev tV : Memref sig .scVector .hbm S32768x128 .f32 := Memref.whole main_v1_scv
private abbrev iV : Memref sig .scVector .hbm S128 .i32 := Memref.whole main_v2_scv
private abbrev oV : Memref sig .scVector .hbm S128x128 .f32 := Memref.whole main_v3_scv
private abbrev sV : Memref sig .scVector .vmem S8 .i32 := Memref.whole cc0_scratch0
private abbrev rV : Memref sig .scVector .vmem S8x128 .f32 := Memref.whole cc0_scratch1

def PreOK : Prop := ∀ (d : Dev nD) (j : S8x16.Idx), (m ((SparseCore.T d).loc main_arg3) j).toNat < 32768

theorem idiv : 16 ∣ S128.size 0 := ⟨8, rfl⟩
theorem odiv : 16 ∣ S128x128.size 0 := ⟨8, rfl⟩
abbrev iblk (w : Fin 16) : Rect S128 := Rect.part (s := S128) (a₀ := 0) idiv w
abbrev oblk (w : Fin 16) : Rect S128x128 := Rect.part (s := S128x128) (a₀ := 0) odiv w

section Blocks

variable {sh : Shape} {a₀ : Fin sh.rank} (hd : 16 ∣ sh.size a₀)

/-- Of the sixteen parts of an axis, tile `(c, j)` owns part `2 j + c` when there is one. -/
def tset (c : Fin 2) (j : Fin 16) : Finset sh.Idx := if h : 2 * j.val + c.val < 16 then (Rect.part hd ⟨2 * j.val + c.val, h⟩).set else ∅
def cset (c : Fin 2) : Finset sh.Idx := Finset.univ.biUnion (tset hd c)

theorem tset_disjoint {c c' : Fin 2} {j j' : Fin 16} (h : c ≠ c' ∨ j ≠ j') : Disjoint (tset hd c j) (tset hd c' j') := by
  unfold tset
  split
  · split
    · refine Rect.part_disjoint hd fun e => ?_
      have e' : 2 * j.val + c.val = 2 * j'.val + c'.val := congrArg Fin.val e
      rcases h with h | h <;> exact h (Fin.ext (by omega))
    · exact Finset.disjoint_empty_right _
  · exact Finset.disjoint_empty_left _

theorem cset_disjoint {c c' : Fin 2} (h : c ≠ c') : Disjoint (cset hd c) (cset hd c') := by
  unfold cset
  rw [Finset.disjoint_biUnion_left]; intro j _
  rw [Finset.disjoint_biUnion_right]; intro j' _
  exact tset_disjoint hd (.inl h)

/-- Part `w` is tile `(w % 2, w / 2)`'s. -/
theorem cset_cover : (Finset.univ : Finset (Fin 2)).biUnion (cset hd) = Finset.univ := by
  ext x
  simp only [Finset.mem_univ, iff_true]
  obtain ⟨w, -, hw⟩ := Finset.mem_biUnion.mp ((Rect.biUnion_part hd).symm ▸ Finset.mem_univ x)
  refine Finset.mem_biUnion.mpr ⟨⟨w.val % 2, Nat.mod_lt _ (by decide)⟩, Finset.mem_univ _, ?_⟩
  unfold cset
  refine Finset.mem_biUnion.mpr ⟨⟨w.val / 2, by omega⟩, Finset.mem_univ _, ?_⟩
  unfold tset
  split
  · refine Eq.mpr (congrArg (fun t : Fin 16 => x ∈ (Rect.part hd t).set) (Fin.ext ?_)) hw
    show 2 * (w.val / 2) + w.val % 2 = w.val
    omega
  · rename_i h
    exact absurd (show 2 * (w.val / 2) + w.val % 2 < 16 by omega) h

end Blocks

def iSet (c : Fin 2) (s : Fin 16) : Finset S128.Idx := tset idiv c s
def oSet (c : Fin 2) (s : Fin 16) : Finset S128x128.Idx := tset odiv c s
def iCore (c : Fin 2) : Finset S128.Idx := cset idiv c
def oCore (c : Fin 2) : Finset S128x128.Idx := cset odiv c

def tq (c : Fin 2) : PosShare TreeShare := pieceOf fullShare 2 (by decide) c
def tqs (c : Fin 2) (s : Fin 16) : PosShare TreeShare := pieceOf (tq c) 16 (by decide) s

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

section Geo

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev sL (L : grid0.Coords) : Fin 16 := Fin.cast bound_one (L 1)

theorem cond_iff : ∀ L : grid0.Coords, k0_cond1 L = 1#1 ↔ 2 * (L 1).val + (L 0).val < 16 := by decide +kernel

abbrev irectK (L : grid0.Coords) (h : k0_cond1 L = 1#1) : Rect S128 := Rect.unit (s := S128) (k0_off1 L) S8.size (k0_off1_inb L h)
abbrev orectK (L : grid0.Coords) (h : k0_cond1 L = 1#1) : Rect S128x128 := Rect.unit (s := S128x128) (k0_off2 L) S8x128.size (k0_off2_inb L h)
abbrev iRowK (L : grid0.Coords) (h : k0_cond1 L = 1#1) : Memref sig .scVector .hbm S8 .i32 := (iV).slice (irectK L h) (fun _ => rfl)
abbrev oRowK (L : grid0.Coords) (h : k0_cond1 L = 1#1) : Memref sig .scVector .hbm S8x128 .f32 := (oV).slice (orectK L h) (fun _ => rfl)
abbrev tAllK : Memref sig .scVector .hbm S32768x128 .f32 :=
  (tV).slice (Rect.unit (s := S32768x128) ![0, 0] S32768x128.size inb_S32768x128_S32768x128_0_0) (fun _ => rfl)

theorem irectK_eq (h : k0_cond1 L = 1#1) : irectK L h = iblk ⟨2 * (L 1).val + (L 0).val, (cond_iff L).mp h⟩ := by
  unfold irectK iblk Rect.part Rect.block
  congr 1 <;> funext a
  · rw [k0_off1_eq]
    match a with
    | 0 => simp [Shape.partIx, Shape.partSize]; omega
  · match a with
    | 0 => simp [Shape.partSize]
theorem orectK_eq (h : k0_cond1 L = 1#1) : orectK L h = oblk ⟨2 * (L 1).val + (L 0).val, (cond_iff L).mp h⟩ := by
  unfold orectK oblk Rect.part Rect.block
  congr 1 <;> funext a
  · rw [k0_off2_eq]
    match a with
    | 0 => simp [Shape.partIx, Shape.partSize]; omega
    | 1 => simp [Shape.partIx, Shape.partSize]
  · match a with
    | 0 => simp [Shape.partSize]
    | 1 => simp [Shape.partSize]

theorem set_iRowK (h : k0_cond1 L = 1#1) : (iRowK L h).view.set = iSet (cL L) (sL L) := by
  unfold iSet tset
  rw [dif_pos (show 2 * (sL L).val + (cL L).val < 16 from (cond_iff L).mp h)]
  show ((View.whole (main_v2_scv : Ref sig .scVector)).slice (irectK L h)).set = (iblk _).set
  rw [View.set_slice_whole, irectK_eq L h]; rfl
theorem set_oRowK (h : k0_cond1 L = 1#1) : (oRowK L h).view.set = oSet (cL L) (sL L) := by
  unfold oSet tset
  rw [dif_pos (show 2 * (sL L).val + (cL L).val < 16 from (cond_iff L).mp h)]
  show ((View.whole (main_v3_scv : Ref sig .scVector)).slice (orectK L h)).set = (oblk _).set
  rw [View.set_slice_whole, orectK_eq L h]; rfl

theorem pts_iRowK (h : k0_cond1 L = 1#1) (f : Buf (Elt F) (iLoc d)) :
    ((iRowK L h).view.loc (V d (cV L) (jV L)) ↦[(iRowK L h).view.set]{fullShare} f : sProp 𝕄) = iLoc d ↦[iSet (cL L) (sL L)]{fullShare} f := by
  rw [set_iRowK]
theorem pts_oRowK (h : k0_cond1 L = 1#1) (f : Buf (Elt F) (oLoc d)) :
    ((oRowK L h).view.loc (V d (cV L) (jV L)) ↦[(oRowK L h).view.set]{fullShare} f : sProp 𝕄) = oLoc d ↦[oSet (cL L) (sL L)]{fullShare} f := by
  rw [set_oRowK]
theorem pts_tV (q : PosShare TreeShare) (f : Buf (Elt F) (tLoc d)) :
    ((tV).view.loc (V d (cV L) (jV L)) ↦{q} f : sProp 𝕄) = tLoc d ↦{q} f := rfl
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

abbrev gCell (d : Dev nD) (c : Fin τ.nSC) (i : Fin τ.nSub) : GSem nD τ sig := (V d c i, .dma cc0_scratch2.sem)
abbrev aCell (d : Dev nD) (c : Fin τ.nSC) (i : Fin τ.nSub) : GSem nD τ sig := (V d c i, .dma cc0_scoped0.sem)
abbrev bCell (d : Dev nD) (c : Fin τ.nSC) (i : Fin τ.nSub) : GSem nD τ sig := (V d c i, .dma cc0_scoped1.sem)

theorem ownSems0_V :
    (ownSems0 (V d (cV L) (jV L)) : sProp 𝕄)
      = iprop(semVal (gCell d (cV L) (jV L)) 0 ∗ semVal (aCell d (cV L) (jV L)) 0 ∗ semVal (bCell d (cV L) (jV L)) 0
          ∗ bigSep ((((ownCells (V d (cV L) (jV L))).erase (gCell d (cV L) (jV L))).erase (aCell d (cV L) (jV L))).erase (bCell d (cV L) (jV L))) fun g => semVal g 0) := by
  unfold SparseCore.Cfg.ownSems0
  rw [SparseCore.bigSep_erase' ((mem_ownCells (g := gCell d (cV L) (jV L))).mpr ⟨rfl, rfl⟩),
    SparseCore.bigSep_erase' (Finset.mem_erase.mpr ⟨by simp [gCell, aCell]; decide, (mem_ownCells (g := aCell d (cV L) (jV L))).mpr ⟨rfl, rfl⟩⟩),
    SparseCore.bigSep_erase' (Finset.mem_erase.mpr ⟨by simp [aCell, bCell]; decide, Finset.mem_erase.mpr ⟨by simp [gCell, bCell]; decide,
      (mem_ownCells (g := bCell d (cV L) (jV L))).mpr ⟨rfl, rfl⟩⟩⟩)]

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

theorem rowMajor8 : ∀ k : Fin 8, ((S8.rowMajor.symm (k.cast (by decide : 8 = S8.numel))) 0).val = k.val := by decide

theorem tAllK_emb (j : S32768x128.Idx) : (tAllK).view.emb j = j := by
  funext a
  apply Fin.ext
  match a with
  | ⟨0, _⟩ => show 0 + 1 * _ = _; omega
  | ⟨1, _⟩ => show 0 + 1 * _ = _; omega

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'; isplitr
  · ipureintro; exact fun p hp => (hW' p hp).imp_right Or.inl
  · iexact HO

end Geo

variable [FloatOps F]

abbrev tblOf (d : Dev nD) : Buf (Elt F) (tLoc d) := KT.v1T (m (a0Loc d))
abbrev idsOf (d : Dev nD) : Buf (Elt F) (iLoc d) := KT.v2T (m (a3Loc d))
abbrev gatOf (d : Dev nD) : Buf (Elt F) (oLoc d) := gat (KT.v1T (m (a0Loc d))) (KT.v2T (m (a3Loc d)))

abbrev coreRes (d : Dev nD) (c : Fin 2) (f : Buf (Elt F) (oLoc d)) : sProp 𝕄 :=
  iprop((tLoc d ↦{tq c} tblOf m d) ∗ (iLoc d ↦[iCore c]{fullShare} idsOf m d) ∗ (oLoc d ↦[oCore c]{fullShare} f))
abbrev tileRes (d : Dev nD) (c : Fin 2) (s : Fin 16) (f : Buf (Elt F) (oLoc d)) : sProp 𝕄 :=
  iprop((tLoc d ↦{tqs c s} tblOf m d) ∗ (iLoc d ↦[iSet c s]{fullShare} idsOf m d) ∗ (oLoc d ↦[oSet c s]{fullShare} f))

def P : (K (F := F)).Pay (nD := nD) (Val := Elt F) (Name := ℕ) (U := UU) where
  st := fun q d c => match q with | 0 => coreRes m d (Fin.cast nCore_zero c) (m (oLoc d))
  dn := fun q d c => match q with | 0 => coreRes m d (Fin.cast nCore_zero c) (gatOf m d)
  go := fun q d c i => match q with | 0 => tileRes m d (Fin.cast nCore_zero c) (Fin.cast nSub_zero i) (m (oLoc d))
  td := fun q d c i => match q with | 0 => tileRes m d (Fin.cast nCore_zero c) (Fin.cast nSub_zero i) (gatOf m d)
  x := fun _ _ => iprop(emp)

instance P_storable : (P (F := F) m).IsStorable where
  st q d c := match q with | 0 => (inferInstance : BI.Storable (upEmb : UEmb _ 𝕄) (coreRes m d _ _))
  dn q d c := match q with | 0 => (inferInstance : BI.Storable (upEmb : UEmb _ 𝕄) (coreRes m d _ _))
  go q d c i := match q with | 0 => (inferInstance : BI.Storable (upEmb : UEmb _ 𝕄) (tileRes m d _ _ _))
  td q d c i := match q with | 0 => (inferInstance : BI.Storable (upEmb : UEmb _ 𝕄) (tileRes m d _ _ _))

theorem tiles_eq (d : Dev nD) (c : Fin 2) (f : Buf (Elt F) (oLoc d)) :
    (bigSep Finset.univ fun s : Fin 16 => tileRes m d c s f) = coreRes m d c f := by
  unfold tileRes coreRes
  rw [bigSep_sep', bigSep_sep']
  congr 1
  · exact (pointsTo_piecesOf Finset.univ (tblOf m d) (by decide) (tq c)).symm
  congr 1
  · exact (pointsTo_biUnion (ℓ := iLoc d) Finset.univ (iSet c) fun s _ s' _ h => tset_disjoint idiv (.inr h)).symm
  · exact (pointsTo_biUnion (ℓ := oLoc d) Finset.univ (oSet c) fun s _ s' _ h => tset_disjoint odiv (.inr h)).symm

theorem cores_eq (d : Dev nD) (f : Buf (Elt F) (oLoc d)) :
    (bigSep Finset.univ fun c : Fin 2 => coreRes m d c f)
      = iprop((tLoc d ↦{fullShare} tblOf m d) ∗ (iLoc d ↦{fullShare} idsOf m d) ∗ (oLoc d ↦{fullShare} f)) := by
  unfold coreRes
  rw [bigSep_sep', bigSep_sep']
  congr 1
  · exact (pointsTo_piecesOf Finset.univ (tblOf m d) (by decide) fullShare).symm
  congr 1
  · rw [← pointsTo_biUnion Finset.univ (ℓ := iLoc d) iCore fun c _ c' _ h => cset_disjoint idiv h]
    exact congrArg (fun I => (iLoc d ↦[I]{fullShare} idsOf m d : sProp 𝕄)) (cset_cover idiv)
  · rw [← pointsTo_biUnion Finset.univ (ℓ := oLoc d) oCore fun c _ c' _ h => cset_disjoint odiv h]
    exact congrArg (fun I => (oLoc d ↦[I]{fullShare} f : sProp 𝕄)) (cset_cover odiv)

theorem st0_eq (d : Dev nD) : (bigSep Finset.univ fun c : Fin ((K (F := F)).nCore 0) => (P m).st 0 d c)
    = iprop((tLoc d ↦{fullShare} tblOf m d) ∗ (iLoc d ↦{fullShare} idsOf m d) ∗ (oLoc d ↦{fullShare} m (oLoc d))) :=
  (bigSep_cores (F := F) fun c => coreRes m d c (m (oLoc d))).trans (cores_eq m d _)

theorem dn0_eq (d : Dev nD) : (bigSep Finset.univ fun c : Fin ((K (F := F)).nCore 0) => (P m).dn 0 d c)
    = iprop((tLoc d ↦{fullShare} tblOf m d) ∗ (iLoc d ↦{fullShare} idsOf m d) ∗ (oLoc d ↦{fullShare} gatOf m d)) :=
  (bigSep_cores (F := F) fun c => coreRes m d c (gatOf m d)).trans (cores_eq m d _)

section Tile

variable (d : Dev nD) (L : grid0.Coords)

theorem ids_block_apply (hc : k0_cond1 L = 1#1) (z : S8.Idx) :
    (iRowK L hc).view.read (Elt F) (idsOf m d) z = idsOf m d ((irectK L hc).emb z) :=
  (View.read_apply _ _).trans (cast_eq _ _)

theorem ids_inb (hpre : PreOK m) (h : k0_cond1 L = 1#1) (fs : Buf (Elt F) ((V d (cV L) (jV L)).loc cc0_scratch0)) :
    ∀ x, ((sV).view.read (Elt F) (View.write (Elt F) (sV).view fs ((iRowK L h).view.read (Elt F) (idsOf m d)) Finset.univ) x).toNat
      < S32768x128.size gathers_S32768x128_S8x128.axis := by
  intro x
  rw [View.write_whole_univ]
  simp only [Memref.view_whole, View.read_whole]
  rw [ids_block_apply]
  exact hpre d _

theorem out_value (hpre : PreOK m) (hc : k0_cond1 L = 1#1) (fs : Buf (Elt F) ((V d (cV L) (jV L)).loc cc0_scratch0))
    (hn : S8.numel = S8x128.size gathers_S32768x128_S8x128.axis')
    (hin : ∀ x, ((sV).view.read (Elt F) (View.write (Elt F) (sV).view fs ((iRowK L hc).view.read (Elt F) (idsOf m d)) Finset.univ) x).toNat
      < S32768x128.size gathers_S32768x128_S8x128.axis) (y : S8x128.Idx) :
    SparseCore.gatherPayload gathers_S32768x128_S8x128 ((tAllK).view.read (Elt F) (tblOf m d))
        (SparseCore.rows ((sV).view.read (Elt F) (View.write (Elt F) (sV).view fs ((iRowK L hc).view.read (Elt F) (idsOf m d)) Finset.univ)) hn hin) y
      = gatOf m d ((oRowK L hc).view.emb y) := by
  unfold SparseCore.gatherPayload
  rw [show ∀ j, (tAllK).view.read (Elt F) (tblOf m d) j = tblOf m d ((tAllK).view.emb j) from fun j => (View.read_apply _ _).trans (cast_eq _ _)]
  show KT.v1T (m (a0Loc d)) _ = gat (KT.v1T (m (a0Loc d))) (KT.v2T (m (a3Loc d))) _
  unfold gat
  refine congrArg (KT.v1T (m (a0Loc d))) ?_
  rw [tAllK_emb]
  funext a
  match a with
  | ⟨0, h0⟩ =>
    refine (Shape.Gathers.idx_axis gathers_S32768x128_S8x128 _ y).trans ?_
    apply Fin.ext
    show ((sV).view.read (Elt F) (View.write (Elt F) (sV).view fs ((iRowK L hc).view.read (Elt F) (idsOf m d)) Finset.univ)
        (S8.rowMajor.symm ((y gathers_S32768x128_S8x128.axis').cast hn.symm))).toNat
      = (KT.v2T (m (a3Loc d)) (ValueIdx.ix1 ((oRowK L hc).view.emb y 0))).toNat % 32768
    have hb : (KT.v2T (m (a3Loc d)) (ValueIdx.ix1 ((oRowK L hc).view.emb y 0))).toNat < 32768 := hpre d _
    rw [View.read_write_univ, ids_block_apply, Nat.mod_eq_of_lt hb]
    refine congrArg (fun j => (idsOf m d j).toNat) ?_
    funext b
    match b with
    | ⟨0, _⟩ =>
      apply Fin.ext
      have e1 := rowMajor8 (y gathers_S32768x128_S8x128.axis')
      have e2 : k0_off1 L 0 = k0_off2 L 0 := by rw [k0_off1_eq, k0_off2_eq]; rfl
      show k0_off1 L 0 + 1 * _ = k0_off2 L 0 + 1 * (y 0).val
      rw [e2]
      exact congrArg (fun t => k0_off2 L 0 + 1 * t) e1
  | ⟨1, h1⟩ =>
    apply Fin.ext
    refine (Shape.Gathers.idx_of_ne gathers_S32768x128_S8x128 _ y ⟨1, h1⟩ Nat.one_ne_zero).trans ?_
    show (y 1).val = k0_off2 L 1 + 1 * (y 1).val
    rw [k0_off2_eq]
    show _ = 0 + 1 * _
    omega

theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ tileRes m d (cL L) (sL L) (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_k L tV (Memref.isWhole_whole _) iV (Memref.isWhole_whole _) oV (Memref.isWhole_whole _)
            sV (Memref.isWhole_whole _) rV (Memref.isWhole_whole _) cc0_scratch2 cc0_scoped0 cc0_scoped1)
          fun _ => iprop(tileRes m d (cL L) (sL L) (gatOf m d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_k_eq_skeleton]; unfold cc0_gather_k_skel
  by_cases hc : k0_cond1 L = 1#1
  · simp only [dif_pos hc]
    rw [(K (F := F)).scopedBufs_V hF d (cV L) (jV L), SparseCore.Cfg.scopedSems0_V (Val := Elt F) d (cV L) (jV L), ownSems0_V, ownBufs_V]
    iintro ⟨#Hlv, -, ⟨Ht, Hi, Ho⟩, ⟨⟨%fs, Hs⟩, ⟨%fr, Hr⟩, Hbufs⟩, ⟨HsemG, HsemA, HsemB, Hsems⟩, HO⟩
    ihave Hmw := (show levAts (K (F := F)).L (K (F := F)).lev ⊢ Transfers.MayWaits (V d (cV L) (jV L)) (default : HIx 1) O from
      (K (F := F)).mayWaits_none (thr := V d (cV L) (jV L)) hO) $$ Hlv
    ihave Hi' := (Entails.of_eq (pts_iRowK (F := F) d L hc _).symm) $$ Hi
    ihave Ho' := (Entails.of_eq (pts_oRowK (F := F) d L hc _).symm) $$ Ho
    ihave Ht' := (Entails.of_eq (pts_tV (F := F) d L _ _).symm) $$ Ht
    ihave Hs' := (Entails.of_eq (pts_sV (F := F) d L _).symm) $$ Hs
    ihave Hr' := (Entails.of_eq (pts_rV (F := F) d L _).symm) $$ Hr
    have hin := ids_inb m d L hpre hc
    sl_exec
    sl_step
    have hval : ∀ i ∈ (oRowK L hc).view.set,
        (oRowK L hc).view.writes (Elt F) (m (oLoc d)) [⟨Rect.whole S8x128, tile_body.sl.dma0_1 m d L hc fs fr hin⟩] i = gatOf m d i := by
      intro i hi
      obtain ⟨y, -, rfl⟩ := Finset.mem_map.mp hi
      have h1 := congrFun (View.read_writes_whole (oRowK L hc).view (m (oLoc d)) (tile_body.sl.dma0_1 m d L hc fs fr hin)) y
      rw [View.read_apply] at h1
      refine ((cast_eq _ _).symm.trans h1).trans ?_
      have h3 := congrFun (View.read_writes_whole (rV).view fr (tile_body.sl.gather1 m d L hc fs hin)) y
      exact h3.trans (out_value m d L hpre hc fs _ (hin fs) y)
    ihave Ho2 := (Entails.of_eq (pointsTo_congr (q := fullShare) hval)) $$ Ho'
    isplitl [Ht' Hi' Ho2]
    · isplitl [Ht']; · iexact Ht'
      isplitl [Hi']; · iapply (Entails.of_eq (pts_iRowK (F := F) d L hc _)); iexact Hi'
      iapply (Entails.of_eq (pts_oRowK (F := F) d L hc _)); iexact Ho2
    isplitl [Hs' Hr' Hbufs]
    · isplitl [Hs']; · iexists _; iexact Hs'
      isplitl [Hr']; · iexists _; iexact Hr'
      iexact Hbufs
    isplitl [HsemG HsemA HsemB Hsems]
    · isplitl [HsemG]; · iexact HsemG
      isplitl [HsemA]; · iexact HsemA
      isplitl [HsemB]; · iexact HsemB
      iexact Hsems
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact .inl hp
  · simp only [dif_neg hc]
    have hn : ¬ 2 * (sL L).val + (cL L).val < 16 := fun h' => hc ((cond_iff L).mpr h')
    unfold tileRes iSet oSet tset
    rw [dif_neg hn, dif_neg hn, pointsTo_empty, pointsTo_empty, pointsTo_empty]
    simp only [wp_pure]
    iintro ⟨-, -, Hres, Hb, Hsm, HO⟩
    iframe Hres Hb Hsm
    iexists W; isplitr
    · ipureintro; exact fun p hp => .inl hp
    · iexact HO

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_k (coordsV c s)
          tV (Memref.isWhole_whole _) iV (Memref.isWhole_whole _) oV (Memref.isWhole_whole _)
          sV (Memref.isWhole_whole _) rV (Memref.isWhole_whole _) cc0_scratch2 cc0_scoped0 cc0_scoped1) ⟨⟩ c s := rfl

end Tile

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

theorem vecSplit : (K (F := F)).VecSplit' (P m) 0 := by
  intro d c
  show coreRes m d (Fin.cast nCore_zero c) (m (oLoc d)) ⊢ |={Set.univ}=> iprop(
      (bigSep Finset.univ fun i : Fin ((K (F := F)).nSub 0) => tileRes m d (Fin.cast nCore_zero c) (Fin.cast nSub_zero i) (m (oLoc d)))
      ∗ ((bigSep Finset.univ fun i : Fin ((K (F := F)).nSub 0) => tileRes m d (Fin.cast nCore_zero c) (Fin.cast nSub_zero i) (gatOf m d))
          -∗ coreRes m d (Fin.cast nCore_zero c) (gatOf m d)))
  rw [bigSep_tasks (F := F) (fun i => tileRes m d (Fin.cast nCore_zero c) i (m (oLoc d))),
    bigSep_tasks (F := F) (fun i => tileRes m d (Fin.cast nCore_zero c) i (gatOf m d)), tiles_eq, tiles_eq]
  iintro H; imodintro
  isplitl [H]; · iexact H
  iintro H; iexact H

end Cert.KernelIdeal.KF

end
-- ==== Proof.KBody.lean ====
import proofs.«204919_g30640296690406_cont_9to1_308_17_alg».proof.Proof.KSetup
import proofs.«204919_g30640296690406_cont_9to1_308_17_alg».proof.Proof.KTerm
import Idealize.ShloMosaic.Lib.WholeRead
import Idealize.ShloMosaic.Lib.Pipeline.FrameBody

noncomputable section

namespace Cert.KernelIdeal.KF

open Cert.KernelIdeal Cert.KernelIdeal.Gen
open Idealize.ShloMosaic Idealize.ShloMosaic.Tactic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

def half4 (h : Fin 2) (X : Vec F S2x1x4096x128 .f32) : Vec F S1x1x4096x128 .f32 := fun j => X (ix4 h 0 (j 2) (j 3))
def half3 (h : Fin 2) (X : Vec F S2x4096x128 .f32) : Vec F S1x4096x128 .f32 := fun j => X (ix3 h (j 1) (j 2))
def halfN (h : Fin 2) (X : Vec F S2x16x128 .f32) : Vec F S1x16x128 .f32 := fun j => X (ix3 h (j 1) (j 2))

omit [FloatOps F] in
theorem word_lt (i : grid1.Coords) (r : Fin 2) : k1_off1 i (BitVec.ofNat 32 r.val) 0 < 8 := by
  have : k1_off1 i (BitVec.ofNat 32 r.val) 0 + 1 ≤ 8 := k1_off1_inb i r 0
  omega

def lenOf (i : grid1.Coords) (r : Fin 2) (X : Vec F S8 .i32) : Elt F .i32 := X (ix1 ⟨k1_off1 i (BitVec.ofNat 32 r.val) 0, word_lt i r⟩)

abbrev isFirst (i : grid1.Coords) : Prop :=
  (Scalar.cmpi .ne (Scalar.extui (Scalar.cmpi .eq (BitVec.ofNat 32 (i 0).val) 0#32)) 0#32) = 1#1

def outAt (i : grid1.Coords) (X0 : Vec F S8 .i32) (X1 X2 X3 : Vec F S2x1x4096x128 .f32) (X4 : Vec F S2x4096x128 .f32)
    (X5 : Vec F S2x16x128 .f32) (X6 : Vec F S1x1 .f32) : Vec F S1x1 .f32 :=
  KT.out1 (KT.acc0 (half4 0 X1) (half4 0 X2) (half4 0 X3) (half3 0 X4) (halfN 0 X5) (lenOf i 0 X0))
    (half4 1 X1) (half4 1 X2) (half4 1 X3) (half3 1 X4) (halfN 1 X5) (lenOf i 1 X0)
    (if (i 0).val = 0 then k1_pay18 else X6)

omit [FloatOps F] in
theorem idx11_eq (y y' : S1x1.Idx) : y = y' :=
  funext fun a => match a with | ⟨0, _⟩ | ⟨1, _⟩ => Subsingleton.elim (α := Fin 1) _ _

omit [FloatOps F] in
theorem owns_unread (c : Thread nD τ) {sp : Space} {sh : Shape} {e : EltTy} {m : Memref sig c.2.kind sp sh e} (hm : m.IsWhole)
    (q : PosShare TreeShare) (X : sh.Idx → Elt F e) : (owns c m q X : sProp 𝕄) = (m.view.loc c ↦[m.view.set]{q} hm.unread X) := by
  have h : (owns c m q X : sProp 𝕄) ⊢ (m.view.loc c ↦[m.view.set]{q} hm.unread X) := by
    unfold owns; iintro ⟨%f, %hf, H⟩; obtain rfl := hm.eq_unread hf; iexact H
  exact BI.equiv_iff.mp ⟨h, (owns_intro c m q _).trans (Entails.of_eq (congrArg (owns c m q) (hm.read_unread X)))⟩

section Loads

variable {o4 : Fin 4 → ℕ} {o3 : Fin 3 → ℕ} {o1 : Fin 1 → ℕ}

omit [FloatOps F] in
/-- The block spans every axis but the first, so its offsets there are zero. -/
theorem readAt_half4 {m : Memref sig .tc .vmem S2x1x4096x128 .f32} (hm : m.IsWhole) (X : Vec F S2x1x4096x128 .f32)
    (hb : ∀ a, o4 a + S1x1x4096x128.size a ≤ S2x1x4096x128.size a) :
    View.readAt (Elt F) m.view (Rect.unit (s := S2x1x4096x128) o4 S1x1x4096x128.size hb).toLoadRect (hm.unread X)
      = half4 ⟨o4 0, by have : o4 0 + 1 ≤ 2 := hb 0; omega⟩ X := by
  funext x
  rw [hm.readAt_unread]
  unfold half4
  congr 1
  funext a
  refine Fin.ext ?_
  match a with
  | ⟨0, _⟩ => have : (x 0).val < 1 := (x 0).isLt; show o4 0 + 1 * (x 0).val = o4 0; omega
  | ⟨1, _⟩ => have : (x 1).val < 1 := (x 1).isLt; have : o4 1 + 1 ≤ 1 := hb 1; show o4 1 + 1 * (x 1).val = 0; omega
  | ⟨2, _⟩ => have : o4 2 + 4096 ≤ 4096 := hb 2; show o4 2 + 1 * (x 2).val = (x 2).val; omega
  | ⟨3, _⟩ => have : o4 3 + 128 ≤ 128 := hb 3; show o4 3 + 1 * (x 3).val = (x 3).val; omega

omit [FloatOps F] in
theorem readAt_half3 {m : Memref sig .tc .vmem S2x4096x128 .f32} (hm : m.IsWhole) (X : Vec F S2x4096x128 .f32)
    (hb : ∀ a, o3 a + S1x4096x128.size a ≤ S2x4096x128.size a) :
    View.readAt (Elt F) m.view (Rect.unit (s := S2x4096x128) o3 S1x4096x128.size hb).toLoadRect (hm.unread X)
      = half3 ⟨o3 0, by have : o3 0 + 1 ≤ 2 := hb 0; omega⟩ X := by
  funext x
  rw [hm.readAt_unread]
  unfold half3
  congr 1
  funext a
  refine Fin.ext ?_
  match a with
  | ⟨0, _⟩ => have : (x 0).val < 1 := (x 0).isLt; show o3 0 + 1 * (x 0).val = o3 0; omega
  | ⟨1, _⟩ => have : o3 1 + 4096 ≤ 4096 := hb 1; show o3 1 + 1 * (x 1).val = (x 1).val; omega
  | ⟨2, _⟩ => have : o3 2 + 128 ≤ 128 := hb 2; show o3 2 + 1 * (x 2).val = (x 2).val; omega

omit [FloatOps F] in
theorem readAt_halfN {m : Memref sig .tc .vmem S2x16x128 .f32} (hm : m.IsWhole) (X : Vec F S2x16x128 .f32)
    (hb : ∀ a, o3 a + S1x16x128.size a ≤ S2x16x128.size a) :
    View.readAt (Elt F) m.view (Rect.unit (s := S2x16x128) o3 S1x16x128.size hb).toLoadRect (hm.unread X)
      = halfN ⟨o3 0, by have : o3 0 + 1 ≤ 2 := hb 0; omega⟩ X := by
  funext x
  rw [hm.readAt_unread]
  unfold halfN
  congr 1
  funext a
  refine Fin.ext ?_
  match a with
  | ⟨0, _⟩ => have : (x 0).val < 1 := (x 0).isLt; show o3 0 + 1 * (x 0).val = o3 0; omega
  | ⟨1, _⟩ => have : o3 1 + 16 ≤ 16 := hb 1; show o3 1 + 1 * (x 1).val = (x 1).val; omega
  | ⟨2, _⟩ => have : o3 2 + 128 ≤ 128 := hb 2; show o3 2 + 1 * (x 2).val = (x 2).val; omega

omit [FloatOps F] in
theorem readAt_word {m : Memref sig .tc .smem S8 .i32} (hm : m.IsWhole) (W : Vec F S8 .i32) (hb : ∀ a, o1 a + S1.size a ≤ S8.size a)
    (hp : 0 < (Rect.unit (s := S8) o1 S1.size hb).toLoadRect.shape.numel) :
    View.readAt (Elt F) m.view (Rect.unit (s := S8) o1 S1.size hb).toLoadRect (hm.unread W) (Shape.Idx.first hp)
      = W (ix1 ⟨o1 0, by have : o1 0 + 1 ≤ 8 := hb 0; omega⟩) := by
  rw [hm.readAt_unread]
  congr 1
  funext a
  refine Fin.ext ?_
  match a with
  | ⟨0, _⟩ => show o1 0 + 1 * 0 = o1 0; omega

end Loads

omit [FloatOps F] in
theorem readAt_11 {m : Memref sig .tc .vmem S1x1 .f32} (h : m.IsWhole) (X : Vec F S1x1 .f32) :
    View.readAt (Elt F) m.view (Rect.unit (s := S1x1) ![0, 0] S1x1.size inb_S1x1_S1x1_0_0).toLoadRect (h.unread X) = X :=
  funext fun x => (h.readAt_unread X _ x).trans (congrArg X (idx11_eq _ _))

omit [FloatOps F] in
theorem isFirst_iff (i : grid1.Coords) : isFirst i ↔ (i 0).val = 0 :=
  (by decide +kernel : ∀ n : Fin 4, (Scalar.cmpi .ne (Scalar.extui (Scalar.cmpi .eq (BitVec.ofNat 32 n.val) 0#32)) 0#32) = 1#1 ↔ n.val = 0)
    ⟨(i 0).val, (i 0).isLt⟩

theorem body_run (d : Dev nD) (i : grid1.Coords)
    (arg1 : Memref sig .tc .smem S8 .i32) (harg1 : arg1.IsWhole) (arg2 : Memref sig .tc .vmem S2x1x4096x128 .f32) (harg2 : arg2.IsWhole)
    (arg3 : Memref sig .tc .vmem S2x1x4096x128 .f32) (harg3 : arg3.IsWhole) (arg4 : Memref sig .tc .vmem S2x1x4096x128 .f32) (harg4 : arg4.IsWhole)
    (arg5 : Memref sig .tc .vmem S2x4096x128 .f32) (harg5 : arg5.IsWhole) (arg6 : Memref sig .tc .vmem S2x16x128 .f32) (harg6 : arg6.IsWhole)
    (arg7 : Memref sig .tc .vmem S1x1 .f32) (harg7 : arg7.IsWhole)
    (X0 : Vec F S8 .i32) (X1 X2 X3 : Vec F S2x1x4096x128 .f32) (X4 : Vec F S2x4096x128 .f32) (X5 : Vec F S2x16x128 .f32) (X6 : Vec F S1x1 .f32)
    (E : Set ℕ) :
    (iprop(owns (T d) arg1 fullShare X0 ∗ owns (T d) arg2 fullShare X1 ∗ owns (T d) arg3 fullShare X2 ∗ owns (T d) arg4 fullShare X3
        ∗ owns (T d) arg5 fullShare X4 ∗ owns (T d) arg6 fullShare X5 ∗ owns (T d) arg7 fullShare X6) : sProp 𝕄)
      ⊢ wp frame (wpE (defs₀ (F := F)) 𝒱₀ (T d) none) E
          (cc1__cpc_body i arg1 harg1 arg2 harg2 arg3 harg3 arg4 harg4 arg5 harg5 arg6 harg6 arg7 harg7) fun _ =>
          iprop(owns (T d) arg1 fullShare X0 ∗ owns (T d) arg2 fullShare X1 ∗ owns (T d) arg3 fullShare X2 ∗ owns (T d) arg4 fullShare X3
            ∗ owns (T d) arg5 fullShare X4 ∗ owns (T d) arg6 fullShare X5 ∗ owns (T d) arg7 fullShare (outAt i X0 X1 X2 X3 X4 X5 X6)) := by
  simp only [cc1__cpc_body_eq_skeleton, owns_unread (T d) harg1, owns_unread (T d) harg2, owns_unread (T d) harg3, owns_unread (T d) harg4,
    owns_unread (T d) harg5, owns_unread (T d) harg6, owns_unread (T d) harg7 _ X6]
  unfold cc1__cpc_body_skel
  iintro ⟨H0, H1, H2, H3, H4, H5, H6⟩
  by_cases hc : isFirst i
  all_goals
    have hg := hc
    rw [isFirst_iff] at hg
    sl_exec (disch := first | exact hc)
    sl_step
    iframe H0 H1 H2 H3 H4 H5
    unfold owns
    iexists _; isplitr; rotate_left
    · iexact H6
    ipureintro
    funext y
    obtain ⟨x, rfl⟩ : ∃ x : (Rect.unit (s := S1x1) ![0, 0] S1x1.size inb_S1x1_S1x1_0_0).shape.Idx,
        (Rect.unit (s := S1x1) ![0, 0] S1x1.size inb_S1x1_S1x1_0_0).emb x = y := ⟨y, idx11_eq _ _⟩
    rw [View.read_writes_cons_emb, idx11_eq ((Rect.unit (s := S1x1) ![0, 0] S1x1.size inb_S1x1_S1x1_0_0).emb x) x]
    sl_unfold_run_names
    repeat rw [readAt_half4]
    repeat rw [readAt_half3]
    repeat rw [readAt_halfN]
    repeat rw [readAt_word]
    first | rw [View.readCov_cons_toLoadRect] | rw [readAt_11]
    unfold outAt
    first | rw [if_pos hg] | rw [if_neg hg]
    rfl

end Cert.KernelIdeal.KF

end
-- ==== Proof.KRegion.lean ====
import proofs.«204919_g30640296690406_cont_9to1_308_17_alg».proof.Proof.KSetup
import proofs.«204919_g30640296690406_cont_9to1_308_17_alg».proof.Proof.KTerm
import proofs.«204919_g30640296690406_cont_9to1_308_17_alg».proof.Proof.KBody
import Idealize.ShloMosaic.Lib.Pipeline.FrameBody
import Idealize.ShloMosaic.Lib.Pipeline.Value

noncomputable section

namespace Cert.KernelIdeal.KF

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig (HIx 1) (Elt F) ℕ UU ℕ

abbrev adm : (p : Fin 1) → (pcfgs (F := F) p).Adm := fun p => (cfgs p).toPCfg_adm

abbrev XT : Type := (⟨S8x3x4096x128, .f32⟩ : BufTy).Contents (Elt F)
abbrev V4T : Type := (⟨S8x16x128, .f32⟩ : BufTy).Contents (Elt F)
abbrev OT : Type := (⟨S1x1, .f32⟩ : BufTy).Contents (Elt F)

section Data

variable (a2v : KT.A2 (F := F)) (xv : XT (F := F)) (a0v : KT.A0 (F := F)) (v4v : V4T (F := F)) (ov : OT (F := F))

def gOf (t : Fin cfg1.N) : Fin 4 := ⟨t.val, lt_of_lt_of_eq t.isLt N_1⟩

def accN : ℕ → Vec F S1x1 .f32
  | 0 => KT.pointOut a2v xv a0v v4v 0 k1_pay18
  | n + 1 => KT.pointOut a2v xv a0v v4v (Fin.ofNat 4 (n + 1)) (accN n)

def arrA (d : Dev nD) : (w : Fin 7) → Buf (Elt F) ((cfg1.win w).arr.view.loc (d.tc : Thread nD τ))
  | 0 => a2v | 1 => xv | 2 => xv | 3 => xv | 4 => a0v | 5 => v4v | 6 => ov
  | ⟨_ + 7, h⟩ => absurd h (Nat.not_lt.2 (Nat.le_add_left _ _))

def afterD : (w : Fin 7) → Fin cfg1.N → (cfg1.win w).block.Idx → Elt F (cfg1.win w).elt
  | 0, t => ((cfg1.win 0).blk t).view.read (Elt F) a2v
  | 1, t => ((cfg1.win 1).blk t).view.read (Elt F) xv
  | 2, t => ((cfg1.win 2).blk t).view.read (Elt F) xv
  | 3, t => ((cfg1.win 3).blk t).view.read (Elt F) xv
  | 4, t => ((cfg1.win 4).blk t).view.read (Elt F) a0v
  | 5, t => ((cfg1.win 5).blk t).view.read (Elt F) v4v
  | 6, t => accN a2v xv a0v v4v t.val
  | ⟨_ + 7, h⟩, _ => absurd h (Nat.not_lt.2 (Nat.le_add_left _ _))

def qD : Fin 7 → PosShare TreeShare
  | 0 => fullShare | 1 => fullShare.left | 2 => fullShare.right.left | 3 => fullShare.right.right | 4 => fullShare | 5 => fullShare | 6 => fullShare
  | ⟨_ + 7, h⟩ => absurd h (Nat.not_lt.2 (Nat.le_add_left _ _))

variable (B : Set (SemLoc sig × HIx 1))

def dats (d : Dev nD) : Dat τ (Elt F) (HIx 1) ℕ UU ℕ cfg1 d where
  A := arrA a2v xv a0v v4v ov d
  after := afterD a2v xv a0v v4v
  Φ _ := (BI.emp : sProp 𝕄)
  q := qD
  owed _ := 0
  recorded _ := B

theorem before_in (d : Dev nD) (t : Fin cfg1.N) : ∀ (w : Fin 7) (_ : w ≠ 6) (dd),
    (dats a2v xv a0v v4v ov B d).before w t dd = afterD a2v xv a0v v4v w t
  | 0, _, _ | 1, _, _ | 2, _, _ | 3, _, _ | 4, _, _ | 5, _, _ => by
    rw [Dat.before_in_eq_fetched _ _ rfl (fun _ => rfl) (fun _ _ _ => rfl) (fun _ => rfl)]
    unfold Dat.fetched Dat.blockOf; dsimp only [dats]; rfl
  | 6, h, _ => absurd rfl h

theorem before_out_succ (d : Dev nD) (t : Fin cfg1.N) (ht : t.val ≠ 0) (dd) :
    (dats a2v xv a0v v4v ov B d).before 6 t dd = accN a2v xv a0v v4v (t.val - 1) := by
  have h4 : t.val < 4 := lt_of_lt_of_eq t.isLt N_1
  rw [Dat.before_out_kept _ 6 rfl t ht (Bool.eq_false_iff.mpr fun h => by have h3 := (flush1_6 _).mp h; dsimp only at h3; omega) (fun _ => rfl) (fun _ _ => rfl)]
  dsimp only [dats, afterD]

theorem coords_val (t : Fin cfg1.N) : (grid1.coords t 0).val = t.val := by
  rcases fin_N1 t with rfl | rfl | rfl | rfl <;> rfl

theorem idx0 (t : Fin cfg1.N) : (BitVec.ofNat 32 (grid1.coords t 0).val).toNat = t.val := by
  rcases fin_N1 t with rfl | rfl | rfl | rfl <;> rfl

omit [FloatOps F] in
theorem seq_lt (t : Fin cfg1.N) (h : Fin 2) : 2 * t.val + h.val < 8 := by
  have h1 : h.val < 2 := h.isLt; have h2 : t.val < 4 := lt_of_lt_of_eq t.isLt N_1; omega

theorem lenOf_B0 (t : Fin cfg1.N) (r : Fin 2) :
    lenOf (grid1.coords t) r (((cfg1.win 0).blk t).view.read (Elt F) a2v) = KT.lenAt a2v ⟨2 * t.val + r.val, seq_lt t r⟩ := by
  unfold lenOf KT.lenAt
  rw [View.read_apply]
  show a2v _ = a2v _
  congr 1
  funext a
  apply Fin.ext
  match a with
  | ⟨0, h⟩ => exact ((cfg1.win 0).rect_emb_val_of_index_zero t ⟨0, h⟩ rfl _).trans ((congrFun (k1_off1_eq (grid1.coords t) r) 0).trans (congrArg (2 * · + r.val) (coords_val t)))

theorem half4_B (t : Fin cfg1.N) (h : Fin 2) :
    half4 h (((cfg1.win 1).blk t).view.read (Elt F) xv) = KT.xPiece xv ⟨2 * t.val + h.val, seq_lt t h⟩ 0
    ∧ half4 h (((cfg1.win 2).blk t).view.read (Elt F) xv) = KT.xPiece xv ⟨2 * t.val + h.val, seq_lt t h⟩ 1
    ∧ half4 h (((cfg1.win 3).blk t).view.read (Elt F) xv) = KT.xPiece xv ⟨2 * t.val + h.val, seq_lt t h⟩ 2 := by
  refine ⟨?_, ?_, ?_⟩ <;>
  · funext j
    unfold half4 KT.xPiece
    rw [View.read_apply]
    show xv _ = xv _
    congr 1
    funext a
    apply Fin.ext
    match a with
    | ⟨0, p⟩ => exact (Window.rect_emb_val _ t _ _).trans (by
        show (BitVec.ofNat 32 (grid1.coords t 0).val).toNat * 2 + h.val = 2 * t.val + h.val
        rw [idx0]; omega)
    | ⟨1, p⟩ => exact Window.rect_emb_val _ t _ _
    | ⟨2, p⟩ | ⟨3, p⟩ => exact Window.rect_emb_val_of_index_zero _ t _ rfl _

theorem half3_B (t : Fin cfg1.N) (h : Fin 2) :
    half3 h (((cfg1.win 4).blk t).view.read (Elt F) a0v) = KT.bPiece a0v ⟨2 * t.val + h.val, seq_lt t h⟩
    ∧ halfN h (((cfg1.win 5).blk t).view.read (Elt F) v4v) = KT.nPiece v4v ⟨2 * t.val + h.val, seq_lt t h⟩ := by
  refine ⟨?_, ?_⟩ <;>
  · funext j
    simp only [half3, halfN, KT.bPiece, KT.nPiece]
    rw [View.read_apply]
    refine (cast_eq _ _).trans (congrArg _ (funext fun a => Fin.ext ?_))
    match a with
    | ⟨0, p⟩ => exact (Window.rect_emb_val _ t _ _).trans (by
        show (BitVec.ofNat 32 (grid1.coords t 0).val).toNat * 2 + h.val = 2 * t.val + h.val
        rw [idx0]; omega)
    | ⟨1, p⟩ | ⟨2, p⟩ => exact Window.rect_emb_val_of_index_zero _ t _ rfl _

theorem ite_first (t : Fin cfg1.N) (X6 : Vec F S1x1 .f32) :
    (if (grid1.coords t 0).val = 0 then (k1_pay18 : FVec F S1x1 .f32) else X6) = (if gOf t = 0 then k1_pay18 else X6) := by
  rw [coords_val]
  by_cases h : t.val = 0
  · rw [if_pos h, if_pos (Fin.ext h)]
  · rw [if_neg h, if_neg (fun e => h (congrArg Fin.val e))]

theorem outAt_point (t : Fin cfg1.N) (X6 : Vec F S1x1 .f32) :
    outAt (grid1.coords t) (afterD a2v xv a0v v4v 0 t) (afterD a2v xv a0v v4v 1 t) (afterD a2v xv a0v v4v 2 t) (afterD a2v xv a0v v4v 3 t)
        (afterD a2v xv a0v v4v 4 t) (afterD a2v xv a0v v4v 5 t) X6
      = KT.pointOut a2v xv a0v v4v (gOf t) X6 := by
  unfold outAt KT.pointOut
  simp only [afterD]
  have h4 := half4_B xv t
  have h3 := half3_B a0v v4v t
  rw [(h4 0).1, (h4 1).1, (h4 0).2.1, (h4 1).2.1, (h4 0).2.2, (h4 1).2.2, (h3 0).1, (h3 1).1, (h3 0).2, (h3 1).2, lenOf_B0, lenOf_B0, ite_first]
  rfl

theorem out_step (d : Dev nD) (t : Fin cfg1.N) (dd) :
    outAt (grid1.coords t) (afterD a2v xv a0v v4v 0 t) (afterD a2v xv a0v v4v 1 t) (afterD a2v xv a0v v4v 2 t) (afterD a2v xv a0v v4v 3 t)
        (afterD a2v xv a0v v4v 4 t) (afterD a2v xv a0v v4v 5 t) ((dats a2v xv a0v v4v ov B d).before 6 t dd)
      = accN a2v xv a0v v4v t.val := by
  rw [outAt_point]
  obtain ⟨n, hn⟩ := t
  cases n with
  | zero =>
    show KT.pointOut a2v xv a0v v4v 0 _ = KT.pointOut a2v xv a0v v4v 0 _
    unfold KT.pointOut; rw [if_pos rfl, if_pos rfl]
  | succ n =>
    rw [before_out_succ a2v xv a0v v4v ov B d ⟨n + 1, hn⟩ (Nat.succ_ne_zero n)]
    show KT.pointOut a2v xv a0v v4v (gOf ⟨n + 1, hn⟩) (accN a2v xv a0v v4v n) = KT.pointOut a2v xv a0v v4v (Fin.ofNat 4 (n + 1)) (accN a2v xv a0v v4v n)
    congr 1
    apply Fin.ext
    show n + 1 = (n + 1) % 4
    rw [Nat.mod_eq_of_lt (lt_of_lt_of_eq hn N_1)]

end Data

def regionArrays (d : Dev nD) (a2v : KT.A2 (F := F)) (xv : XT (F := F)) (a0v : KT.A0 (F := F)) (v4v : V4T (F := F)) (ov : OT (F := F)) : sProp 𝕄 :=
  iprop((((T d : Thread nD τ).loc main_arg2) ↦{fullShare} a2v) ∗ (((T d : Thread nD τ).loc main_v0) ↦{fullShare} xv)
    ∗ (((T d : Thread nD τ).loc main_arg0) ↦{fullShare} a0v) ∗ (((T d : Thread nD τ).loc main_v4) ↦{fullShare} v4v)
    ∗ (((T d : Thread nD τ).loc main_v5) ↦{fullShare} ov))

def regionGhost (d : Dev nD) : sProp 𝕄 :=
  iprop(Pipeline.cellsGhost (Pipeline.pin (pcfgs (F := F)) adm) EP 0 d ∗ Pipeline.toksInit (Pipeline.pin (pcfgs (F := F)) adm) EP 0 d)

section Region

variable (a2v : KT.A2 (F := F)) (xv : XT (F := F)) (a0v : KT.A0 (F := F)) (v4v : V4T (F := F)) (ov : OT (F := F))
variable (B : Set (SemLoc sig × HIx 1))

theorem arrays_eq (d : Dev nD) (G : (w : Fin 7) → Buf (Elt F) ((cfg1.win w).arr.view.loc (d.tc : Thread nD τ))) :
    (dats a2v xv a0v v4v ov B d).arrays G
      = (iprop((((T d : Thread nD τ).loc main_arg2) ↦{fullShare} G 0) ∗ (((T d : Thread nD τ).loc main_v0) ↦{fullShare.left} G 1)
        ∗ (((T d : Thread nD τ).loc main_v0) ↦{fullShare.right.left} G 2) ∗ (((T d : Thread nD τ).loc main_v0) ↦{fullShare.right.right} G 3)
        ∗ (((T d : Thread nD τ).loc main_arg0) ↦{fullShare} G 4) ∗ (((T d : Thread nD τ).loc main_v4) ↦{fullShare} G 5)
        ∗ (((T d : Thread nD τ).loc main_v5) ↦{fullShare} G 6)) : sProp 𝕄) := by
  unfold Dat.arrays
  rw [bigSep_W1]
  rw [(arr_whole1 0).set_eq_univ, (arr_whole1 1).set_eq_univ,
    (arr_whole1 4).set_eq_univ, (arr_whole1 5).set_eq_univ, (arr_whole1 6).set_eq_univ]
  rfl

/-- A whole share is its left half and the two halves of its right half. -/
theorem x_split (ℓ : Loc nD τ sig) (f : Buf (Elt F) ℓ) :
    (ℓ ↦{fullShare} f : sProp 𝕄) ⊣⊢ iprop((ℓ ↦{fullShare.left} f) ∗ (ℓ ↦{fullShare.right.left} f) ∗ (ℓ ↦{fullShare.right.right} f)) :=
  (pointsTo_share (PosShare.mem_left_op_right fullShare)).trans
    ⟨sep_mono .rfl (pointsTo_share (PosShare.mem_left_op_right fullShare.right)).1,
     sep_mono .rfl (pointsTo_share (PosShare.mem_left_op_right fullShare.right)).2⟩

theorem body_obligation (d : Dev nD) : BodyObligation (dats a2v xv a0v v4v ov B d) (defs₀ (F := F)) 𝒱₀ (none : HIx 1) Set.univ := fun t => by
  have hb := before_in a2v xv a0v v4v ov B d t
  rw [bigSep_W1, bigSep_W1]
  simp only [hb 0 (by decide), hb 1 (by decide), hb 2 (by decide), hb 3 (by decide), hb 4 (by decide), hb 5 (by decide)]
  iintro ⟨-, HO, ⟨%d0, H0⟩, ⟨%d1, H1⟩, ⟨%d2, H2⟩, ⟨%d3, H3⟩, ⟨%d4, H4⟩, ⟨%d5, H5⟩, ⟨%d6, H6⟩⟩
  ihave Hwp := (body_run d (grid1.coords t) _ (hstage1_0 ((cfg1.slots t 0).cast nbuf1_0)) _ (hstage1_1 ((cfg1.slots t 1).cast nbuf1_1))
      _ (hstage1_2 ((cfg1.slots t 2).cast nbuf1_2)) _ (hstage1_3 ((cfg1.slots t 3).cast nbuf1_3)) _ (hstage1_4 ((cfg1.slots t 4).cast nbuf1_4))
      _ (hstage1_5 ((cfg1.slots t 5).cast nbuf1_5)) _ (hstage1_6 ((cfg1.slots t 6).cast nbuf1_6))
      (afterD a2v xv a0v v4v 0 t) (afterD a2v xv a0v v4v 1 t) (afterD a2v xv a0v v4v 2 t) (afterD a2v xv a0v v4v 3 t)
      (afterD a2v xv a0v v4v 4 t) (afterD a2v xv a0v v4v 5 t) ((dats a2v xv a0v v4v ov B d).before 6 t d6) Set.univ) $$ [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  rw [out_step a2v xv a0v v4v ov B d t d6]
  iapply (wp_wand_r frame _ Set.univ)
  isplitl [Hwp]; · iexact Hwp
  iintro %u ⟨H0, H1, H2, H3, H4, H5, H6⟩
  isplitr; · iempintro
  isplitl [HO]; · iexact HO
  isplitl [H0]; · iexact H0
  isplitl [H1]; · iexact H1
  isplitl [H2]; · iexact H2
  isplitl [H3]; · iexact H3
  isplitl [H4]; · iexact H4
  isplitl [H5]; · iexact H5
  iexact H6

theorem arrAt_out (d : Dev nD) : (dats a2v xv a0v v4v ov B d).arrAt 6 cfg1.N = KT.v5T a2v xv a0v v4v := by
  refine (dats a2v xv a0v v4v ov B d).arrAt_eq_of_cover 6 (KT.v5T a2v xv a0v v4v) (fun t hf => ?_) (fun i => ?_)
  · have h3 : t.val = 3 := by
      have h := (flush1_6 t).mp hf
      have h4 : t.val < 4 := lt_of_lt_of_eq t.isLt N_1
      omega
    funext y
    rw [View.read_apply]
    show accN a2v xv a0v v4v t.val y = KT.v5T a2v xv a0v v4v _
    rw [h3]
    exact congrArg (KT.v5T a2v xv a0v v4v) (idx11_eq y _)
  · refine ⟨t1_3, (flush1_6 t1_3).mpr rfl, ?_⟩
    rw [idx11_eq i (((cfg1.win 6).blk t1_3).view.emb i)]
    exact View.emb_mem_set _ _

theorem arrays_intro (d : Dev nD) :
    regionArrays d a2v xv a0v v4v ov ⊢ (dats a2v xv a0v v4v ov B d).arrays (fun w => (dats a2v xv a0v v4v ov B d).arrAt w 0) := by
  rw [arrays_eq]
  unfold regionArrays
  iintro ⟨H2, Hx, H0, H4, H5⟩
  ihave Hx' := (x_split _ _).1 $$ Hx
  icases Hx' with ⟨Hx1, Hx2, Hx3⟩
  isplitl [H2]; · iexact H2
  isplitl [Hx1]; · iexact Hx1
  isplitl [Hx2]; · iexact Hx2
  isplitl [Hx3]; · iexact Hx3
  isplitl [H0]; · iexact H0
  isplitl [H4]; · iexact H4
  iexact H5

theorem arrays_elim (d : Dev nD) :
    (dats a2v xv a0v v4v ov B d).arrays (fun w => (dats a2v xv a0v v4v ov B d).arrAt w cfg1.N)
      ⊢ regionArrays d a2v xv a0v v4v (KT.v5T a2v xv a0v v4v) := by
  rw [arrays_eq, Dat.arrAt_in _ 0 rfl, Dat.arrAt_in _ 1 rfl, Dat.arrAt_in _ 2 rfl, Dat.arrAt_in _ 3 rfl, Dat.arrAt_in _ 4 rfl, Dat.arrAt_in _ 5 rfl,
    arrAt_out]
  unfold regionArrays
  iintro ⟨H2, Hx1, Hx2, Hx3, H0, H4, H5⟩
  isplitl [H2]; · iexact H2
  isplitl [Hx1 Hx2 Hx3]
  · iapply (x_split _ _).2
    isplitl [Hx1]; · iexact Hx1
    isplitl [Hx2]; · iexact Hx2
    iexact Hx3
  isplitl [H0]; · iexact H0
  isplitl [H4]; · iexact H4
  iexact H5

set_option backward.isDefEq.respectTransparency.types false in
def reg (lv : GSem nD τ sig → HIx 1 → ℕ) (hB : ∀ s : SemLoc sig, (s, (none : HIx 1)) ∈ B) : Pipeline.RegionSeg (pcfgs (F := F)) adm (fun _ c => dats a2v xv a0v v4v ov B c) (none : HIx 1) (defs₀ (F := F)) 𝒱₀ (K (F := F)).L lv 0 where
  win := winFacts₀1
  block_pos := block_pos1
  stage_whole := stage_whole1
  K := PEmpty
  osem := fun k => k.elim
  ho := Pipeline.OwnSemFacts.none _
  hbody c := (body_obligation a2v xv a0v v4v ov B c).loose
  hwaits := Pipeline.hwaits_of_owed_zero _ _ _ _ (K (F := F)).L lv 0 fun _ _ => rfl
  pre c := iprop(regionArrays c a2v xv a0v v4v ov ∗ Pipeline.owesWithin c (0 : CellTallies nD τ sig (HIx 1)) B)
  post c := iprop(regionArrays c a2v xv a0v v4v (KT.v5T a2v xv a0v v4v) ∗ Pipeline.owesWithin c (0 : CellTallies nD τ sig (HIx 1)) B)
  X _ := BI.emp
  Y _ := BI.emp
  Z _ := BI.emp
  hentry c := by
    iintro ⟨⟨Harr, HO⟩, -, -⟩
    imodintro
    isplitl [Harr]
    · iapply (arrays_intro a2v xv a0v v4v ov B c); iexact Harr
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW hp)
      iexact HO
    isplitr <;> iempintro
  hin c := by
    iintro -; iempintro
  hout c := by
    iintro -
    isplitr; · iempintro
    isplitr
    · unfold Pipeline.ownSems0; rw [Finset.univ_eq_empty, BI.bigSep_empty]; iempintro
    · iapply (Entails.of_eq (scopedRest1_eq (Ix := HIx 1) (Val := Elt F) (Name := ℕ) (U := UU) (Lvl := ℕ) c).symm); iempintro
  hexit c := by
    iintro ⟨Harr, HO, -, -⟩
    imodintro
    isplitl [Harr]
    · iapply (arrays_elim a2v xv a0v v4v ov B c); iexact Harr
    · unfold Pipeline.Dat.owesAt Pipeline.owesWithin
      icases HO with ⟨%W, %hW, HO⟩; iexists W; isplitr
      · ipureintro
        intro p hp
        rcases hW hp with h | ⟨w, s, rfl⟩
        · exact h
        · exact hB _
      iexact HO

set_option backward.isDefEq.respectTransparency.types false in
theorem region_wp (d : Dev nD) (lv : GSem nD τ sig → HIx 1 → ℕ) (hB : ∀ s : SemLoc sig, (s, (none : HIx 1)) ∈ B) {α : Type} (k : PUnit → Prog (TpuEff nD τ sig (Elt F) (SparseCore.Sig (ΛP (F := F)) 1) .tc) α) (Φ : α → sProp 𝕄) :
    iprop(boundary (T d : Thread nD τ) ∗ regionArrays d a2v xv a0v v4v ov ∗ levAts (K (F := F)).L lv
        ∗ Pipeline.owesWithin d (0 : CellTallies nD τ sig (HIx 1)) B ∗ regionGhost (F := F) d
        ∗ (iprop(boundary (T d : Thread nD τ) ∗ regionArrays d a2v xv a0v v4v (KT.v5T a2v xv a0v v4v) ∗ Pipeline.owesWithin d (0 : CellTallies nD τ sig (HIx 1)) B)
            -∗ wp frame (wpE ((K (F := F)).defs (D (F := F))) 𝒱 (T d) none) Set.univ (k ⟨⟩) Φ))
      ⊢ wp frame (wpE ((K (F := F)).defs (D (F := F))) 𝒱 (T d) none) Set.univ (.op (.customCall (SparseCore.inner (Pipeline.entry 0)) ()) k) Φ := by
  unfold regionGhost
  show _ ⊢ wp frame (wpE ((K (F := F)).defs (D (F := F))) 𝒱 (T d) none) Set.univ
    ((Prog.op (TpuEff.customCall (SparseCore.inner (Pipeline.entry 0)) ()) fun u => Prog.ret u) >>= k) Φ
  rw [wp_bind]
  refine .trans (.trans ?_ (Pipeline.RegionSeg.wp (pcfgs (F := F)) adm (fun _ c => dats a2v xv a0v v4v ov B c) (none : HIx 1) cellOf_inj EP (defs₀ (F := F)) 𝒱₀
      (K (F := F)).L lv (reg a2v xv a0v v4v ov B lv hB) d none (fun u hu => nomatch hu) (fun u => Prog.ret u) _))
    ((K (F := F)).wp_liftProg (D (F := F)) 𝒱 (T d) Set.univ none (Prog.op (TpuEff.customCall (Pipeline.entry 0) ()) fun u => Prog.ret u) _)
  dsimp only [reg]
  iintro ⟨Hbd, Harr, Hla, HO, ⟨Hg, Ht⟩, Hk⟩
  isplitl [Hk]
  · iintro ⟨Hbd, ⟨Harr, HO⟩⟩
    rw [wp_ret]
    imodintro
    iapply Hk
    iframe
  iframe

theorem regionGhost_fund :
    (BI.own (((Emb.inl : Emb UP (UP × Counters)).trans (embR (A := UH) (B := UP × Counters)))
        (initOf (Pipeline.cells cfgs cellOf_inj) (Pipeline.launchToks cfgs cellOf_inj))) : sProp 𝕄)
      ⊢ iprop(|==> bigSep Finset.univ fun d : Dev nD => regionGhost (F := F) d) := by
  refine (Pipeline.fund_ghost cfgs (EP : Emb UP 𝕄) cellOf_inj).trans (bupd_mono ?_)
  unfold regionGhost
  rw [bigSep_sep']
  refine BI.sep_mono (Entails.of_eq (bigSep_congr fun d _ => ?_)) (Entails.of_eq (bigSep_congr fun d _ => ?_)) <;>
    rw [show (Finset.univ : Finset (Fin 1)) = {0} from rfl, bigSep_singleton]

end Region

end Cert.KernelIdeal.KF

end
-- ==== Proof.KMain.lean ====
import proofs.«204919_g30640296690406_cont_9to1_308_17_alg».proof.Proof.KTile
import proofs.«204919_g30640296690406_cont_9to1_308_17_alg».proof.Proof.KRegion

noncomputable section

namespace Cert.KernelIdeal.KF

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

abbrev pts (d : Dev nD) (r : Ref sig .tc) (f : Buf (Elt F) ((SparseCore.T d : Thread nD τ).loc r)) : sProp 𝕄 := (SparseCore.T d : Thread nD τ).loc r ↦{fullShare} f

def V2 (V₀ : Valuation τ sig (Elt F)) (x y : Ref sig .tc) (fx : (Proc.devRef (τ := τ) .tc x).ty.Contents (Elt F)) (fy : (Proc.devRef (τ := τ) .tc y).ty.Contents (Elt F)) :
    Valuation τ sig (Elt F) :=
  Function.update (Function.update V₀ (Proc.devRef .tc x) fx) (Proc.devRef .tc y) fy

theorem V2_x (V₀ : Valuation τ sig (Elt F)) (x y : Ref sig .tc) (hxy : (Proc.devRef (τ := τ) .tc x) ≠ Proc.devRef .tc y) (fx fy) :
    V2 V₀ x y fx fy (Proc.devRef .tc x) = fx := by
  unfold V2; rw [Function.update_of_ne hxy, Function.update_self]
theorem V2_y (V₀ : Valuation τ sig (Elt F)) (x y : Ref sig .tc) (fx fy) :
    V2 V₀ x y fx fy (Proc.devRef .tc y) = fy := by
  unfold V2; rw [Function.update_self]

omit [FloatOps F] in
theorem held_pair (d : Dev nD) (x y : Ref sig .tc) (hxy : (Proc.devRef (τ := τ) .tc x) ≠ Proc.devRef .tc y) (W : Valuation τ sig (Elt F)) :
    (held (T d) {Proc.devRef .tc x, Proc.devRef .tc y} W : sProp 𝕄)
      = iprop(((SparseCore.T d).loc x ↦{fullShare} W (Proc.devRef .tc x)) ∗ ((SparseCore.T d).loc y ↦{fullShare} W (Proc.devRef .tc y))) := by
  unfold held
  rw [SparseCore.bigSep_insert' (by simpa using hxy), bigSep_singleton]

theorem hlo_step (d : Dev nD) (op : HloOp τ sig (Elt F)) (x y : Ref sig .tc) (hxy : (Proc.devRef (τ := τ) .tc x) ≠ Proc.devRef .tc y)
    (hbufs : op.bufs = {Proc.devRef .tc x, Proc.devRef .tc y}) (hw : op.writes = {Proc.devRef .tc y}) (hfresh : op.fresh = ∅)
    (V₀ : Valuation τ sig (Elt F)) (fx fy) (gy) (hgy : op.result (V2 V₀ x y fx fy) (Proc.devRef .tc y) = gy) {α : Type}
    (k : ((b : op.writes) → b.1.ty.Contents (Elt F)) → Prog (TpuEff nD τ sig (Elt F) (SparseCore.Sig (ΛP (F := F)) 1) .tc) α) (Q : α → sProp 𝕄) :
    iprop(boundary (SparseCore.T d) ∗ ((SparseCore.T d).loc x ↦{fullShare} fx) ∗ ((SparseCore.T d).loc y ↦{fullShare} fy))
      ⊢ iprop((iprop(boundary (SparseCore.T d) ∗ ((SparseCore.T d).loc x ↦{fullShare} fx) ∗ ((SparseCore.T d).loc y ↦{fullShare} gy))
            -∗ wp frame (wpE ((K (F := F)).defs (D (F := F))) 𝒱 (SparseCore.T d) none) Set.univ (k (op.fn fun b => V2 V₀ x y fx fy b.1)) Q)
        -∗ wp frame (wpE ((K (F := F)).defs (D (F := F))) 𝒱 (SparseCore.T d) none) Set.univ (hlo rfl op k) Q) := by
  subst hgy
  have hgx : op.result (V2 V₀ x y fx fy) (Proc.devRef .tc x) = fx :=
    (HloOp.result_of_not_mem _ _ (by rw [hw, Finset.mem_singleton]; exact hxy)).trans (V2_x V₀ x y hxy fx fy)
  iintro ⟨Hb, Hx, Hy⟩ Hk
  iapply (wp_hlo_within 𝒱 (SparseCore.T d) none Set.univ (op := op) (S := {Proc.devRef .tc x, Proc.devRef .tc y}) (hbufs ▸ Finset.Subset.refl _)
    (V := V2 V₀ x y fx fy) (hf := hfresh)) $$ [Hb Hx Hy]
  · rw [held_pair d x y hxy, V2_x V₀ x y hxy, V2_y]; iframe
  rw [held_pair d x y hxy, hgx]
  iintro ⟨Hb, Hx, Hy⟩
  iapply Hk
  iframe

theorem reshape_gy {x y : Ref sig .tc} (hxy : x ≠ y) {he hn hx hy} {V₀ : Valuation τ sig (Elt F)} {fx fy} :
    (StableHlo.reshape (τ := τ) (Val := Elt F) x y he hn hx hy).result (V2 V₀ x y fx fy) (Proc.devRef .tc y)
      = fun i => he ▸ shapeCast y.ty.shape fx hn i := by
  rw [StableHlo.reshape_result x y he hn hx hy, V2_x V₀ x y (StableHlo.devRef_ne_of_ne hxy)]
theorem unary_gy {x y : Ref sig .tc} (hxy : x ≠ y) {f : x.ty.Contents (Elt F) → y.ty.Contents (Elt F)} {hx hy} {V₀ : Valuation τ sig (Elt F)} {fx fy} :
    (StableHlo.unary (τ := τ) x y f hx hy).result (V2 V₀ x y fx fy) (Proc.devRef .tc y) = f fx := by
  rw [StableHlo.unary_result x y f hx hy, V2_x V₀ x y (StableHlo.devRef_ne_of_ne hxy)]

variable (m : (ℓ : Loc nD τ sig) → Buf (Elt F) ℓ) (ρ : Dev nD → PrngReg)

def V0 (d : Dev nD) : Valuation τ sig (Elt F) := fun b => m (d, b)

abbrev am0 (d : Dev nD) : KT.A0 (F := F) := m ((SparseCore.T d).loc main_arg0)
abbrev am1 (d : Dev nD) : KT.A1 (F := F) := m ((SparseCore.T d).loc main_arg1)
abbrev am2 (d : Dev nD) : KT.A2 (F := F) := m ((SparseCore.T d).loc main_arg2)
abbrev am3 (d : Dev nD) : KT.A3 (F := F) := m ((SparseCore.T d).loc main_arg3)

def FIN (d : Dev nD) : sProp 𝕄 :=
  iprop(pts d main_arg0 (am0 m d) ∗ pts d main_arg1 (am1 m d) ∗ pts d main_arg2 (am2 m d) ∗ pts d main_arg3 (am3 m d)
    ∗ pts d main_v6 (KT.result gat (am0 m d) (am1 m d) (am2 m d) (am3 m d)))

def Bnd (d : Dev nD) : Set (SemLoc sig × HIx 1) := {p | (K (F := F)).lev (SparseCore.T d, p.1) p.2 ≤ 8}

theorem hmain (κ : GSem nD τ sig → ℕ) (d : Dev nD) :
    iprop((K (F := F)).ctx EH (P m) κ ∗ (K (F := F)).tcSt EH d 0 ∗ (K (F := F)).tcRes m ρ d ∗ regionGhost d)
      ⊢ wp frame (wpE ((K (F := F)).defs (D (F := F))) 𝒱 (SparseCore.T d) none) Set.univ (main d)
          fun _ => iprop((K (F := F)).tcSt EH d 1 ∗ FIN m d) := by
  unfold SparseCore.Cfg.tcRes unscopedBufs
  rw [show (Finset.univ.filter fun b : Ref sig .tc => ¬ b.isScoped) = {main_arg0, main_arg1, main_arg2, main_arg3, main_v0, main_v1, main_v2, main_v3, main_v4, main_v5, main_v6} by decide]
  repeat rw [SparseCore.bigSep_insert' (by decide)]
  rw [bigSep_singleton]
  simp only [main, wp_bind, wp_pure]
  iintro ⟨#Hctx, Hst, ⟨Hb, ⟨H0, H1, H2, H3, Hv0, Hv1, Hv2, Hv3, Hv4, Hv5, Hv6⟩, -, -⟩, HG⟩
  iapply (hlo_step d _ main_arg1 main_v0 (by decide) rfl rfl rfl (V0 m d) _ _
    (KT.v0T (am1 m d)) (unary_gy (by decide))) $$ [Hb H1 Hv0]
  · iframe
  iintro ⟨Hb, H1, Hv0⟩
  rw [wp_ret]; imodintro
  iapply (hlo_step d _ main_arg0 main_v1 (by decide) rfl rfl rfl (V0 m d) _ _
    (KT.v1T (am0 m d)) (reshape_gy (by decide))) $$ [Hb H0 Hv1]
  · iframe
  iintro ⟨Hb, H0, Hv1⟩
  rw [wp_ret]; imodintro
  iapply (hlo_step d _ main_arg3 main_v2 (by decide) rfl rfl rfl (V0 m d) _ _
    (KT.v2T (am3 m d)) (reshape_gy (by decide))) $$ [Hb H3 Hv2]
  · iframe
  iintro ⟨Hb, H3, Hv2⟩
  rw [wp_ret]; imodintro
  iapply ((K (F := F)).wp_run (D (F := F)) 𝒱 (EH := EH) (P := P m) κ d 0) $$ [Hst Hv1 Hv2 Hv3 Hb H0 H1 H2 H3 Hv0 Hv4 Hv5 Hv6 HG]
  isplitr; · iexact Hctx
  isplitl [Hst]; · iexact Hst
  isplitl [Hv1 Hv2 Hv3]
  · rw [st0_eq]; iframe
  rw [dn0_eq]
  iintro ⟨Hst, Hv1, Hv2, Hv3⟩
  iapply (hlo_step d _ main_v3 main_v4 (by decide) rfl rfl rfl (V0 m d) _ _
    (KT.v4T (gat (KT.v1T (am0 m d)) (KT.v2T (am3 m d)))) (reshape_gy (by decide))) $$ [Hb Hv3 Hv4]
  · iframe
  iintro ⟨Hb, Hv3, Hv4⟩
  rw [wp_ret]; imodintro
  ihave #Hlv := ((K (F := F)).ctx_levAts (EH := EH) (P := P m) κ) $$ Hctx
  unfold SparseCore.Cfg.tcSt
  icases Hst with ⟨⟨%W, %hW, HO⟩, Hrest⟩
  rw [(K (F := F)).Otc_end (nD := nD) d (n := (0 : Fin 1).val + 1) (le_refl 1)]
  iapply (region_wp (am2 m d) (KT.v0T (am1 m d)) (am0 m d) (KT.v4T (gat (KT.v1T (am0 m d)) (KT.v2T (am3 m d)))) (m ((SparseCore.T d).loc main_v5))
    (Bnd (F := F) d) d (K (F := F)).lev (fun s => by show (K (F := F)).lev _ none ≤ 8; rw [SparseCore.Cfg.lev_none]; exact Nat.zero_le _)) $$ [Hb H2 Hv0 H0 Hv4 Hv5 HO HG H1 H3 Hv6 Hrest]
  unfold regionArrays
  iframe Hb H2 Hv0 H0 Hv4 Hv5 Hlv HG
  isplitl [HO]
  · iexists W; isplitr
    · ipureintro; intro p hp; exact hW p (Finset.mem_coe.mp hp)
    · iexact HO
  iintro ⟨Hb, ⟨H2, Hv0, H0, Hv4, Hv5⟩, HOw⟩
  rw [wp_ret]; imodintro
  iapply (hlo_step d _ main_v5 main_v6 (by decide) rfl rfl rfl (V0 m d) _ _
    (KT.v6T (KT.v5T (am2 m d) (KT.v0T (am1 m d)) (am0 m d) (KT.v4T (gat (KT.v1T (am0 m d)) (KT.v2T (am3 m d))))))
    (reshape_gy (by decide))) $$ [Hb Hv5 Hv6]
  · iframe
  iintro ⟨Hb, Hv5, Hv6⟩
  rw [wp_ret]; imodintro
  imodintro
  isplitl [HOw Hrest]
  · isplitl [HOw]
    · icases HOw with ⟨%W', %hW', HO⟩
      iexists W'; isplitr
      · ipureintro; intro p hp; exact hW' (Finset.mem_coe.mpr hp)
      · rw [(K (F := F)).Otc_end (nD := nD) d (le_refl 1)]; iexact HO
    · iexact Hrest
  unfold FIN KT.result
  iframe

def u₀ : UU :=
  (initOf (K (F := F)).hsCells (K (F := F)).hsToks, (initOf (Pipeline.cells (cfgs) cellOf_inj) (Pipeline.launchToks (cfgs) cellOf_inj), 1))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => regionGhost (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave HR' := (own_pair_emb (embR (A := UH) (B := UP × Counters)) _ _) $$ HR
  icases HR' with ⟨HP, -⟩
  ihave HG := (regionGhost_fund (F := F)) $$ HP
  imod HG
  imodintro
  iframe HH HG
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

def fq (d : Dev nD) (s' : Phys nD τ sig (Elt F)) : Prop :=
  s'.mem.mem ((SparseCore.T d).loc main_v6) = KT.result gat (am0 m d) (am1 m d) (am2 m d) (am3 m d)
    ∧ s'.mem.mem ((SparseCore.T d).loc main_arg0) = am0 m d ∧ s'.mem.mem ((SparseCore.T d).loc main_arg1) = am1 m d
    ∧ s'.mem.mem ((SparseCore.T d).loc main_arg2) = am2 m d ∧ s'.mem.mem ((SparseCore.T d).loc main_arg3) = am3 m d

theorem hfin (d : Dev nD) (s' : Phys nD τ sig (Elt F)) : iprop(FIN m d ∗ SI s') ⊢ (⌜fq m d s'⌝ : sProp 𝕄) := by
  unfold FIN
  iintro ⟨⟨H0, H1, H2, H3, H6⟩, HSI⟩
  icombine HSI H0 gives %h0
  icombine HSI H1 gives %h1
  icombine HSI H2 gives %h2
  icombine HSI H3 gives %h3
  icombine HSI H6 gives %h6
  ipureintro
  exact ⟨Buf.eq_of_forall_mem_univ h6, Buf.eq_of_forall_mem_univ h0, Buf.eq_of_forall_mem_univ h1, Buf.eq_of_forall_mem_univ h2,
    Buf.eq_of_forall_mem_univ h3⟩

def QC : PUnit × MemSt nD τ sig (Elt F) → Prop := fun r => ∀ c : Dev nD,
  r.2.mem ((c.tc : Thread nD τ).loc main_v6) = KT.result gat (am0 m c) (am1 m c) (am2 m c) (am3 m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun d => regionGhost (F := F) d) (FIN m) (u₀ (F := F)) (sep_elim_left.trans (hu₀ m)) (hmain m ρ) (fq m) (hfin m) (QC m) (fun _ h => h)

end Cert.KernelIdeal.KF

end
-- ==== Proof.KChain.lean ====
import proofs.«204919_g30640296690406_cont_9to1_308_17_alg».proof.Proof.KTerm

noncomputable section

namespace Cert.KernelIdeal.KT

open Cert.KernelIdeal Cert.KernelIdeal.Gen
open Idealize.ShloMosaic Idealize.ShloMosaic.ValueIdx

variable {F : FTy → Type} [FloatOps F]

def lenMask (len : Elt F .i32) : FVec F S4096x1 .f32 :=
  sitofp .f32 (extui 32 (cmpi .slt cRows (broadcast S4096x1 len)) natLt_1_32)

def cat3 (a b c : FVec F S4096x128 .f32) : FVec F S4096x384 .f32 :=
  concatenate S4096x384 1 [⟨S4096x128, a⟩, ⟨S4096x128, b⟩, ⟨S4096x128, c⟩] concatenates_S4096x128_S4096x128_S4096x128_S4096x384_d1

def ycat (a b c : FVec F S4096x128 .f32) (len : Elt F .i32) : FVec F S4096x384 .f32 :=
  mulf (cat3 a b c) (broadcastTo S4096x384 (lenMask len) broadcasts_S4096x1_S4096x384)

def rot1 (v : FVec F S4096x128 .f32) : FVec F S4096x128 .f32 :=
  concatenate S4096x128 0 [⟨S4095x128, extractStridedSlice S4095x128 ![1, 0] v slices_S4096x128_o1_0_S4095x128⟩,
    ⟨S1x128, extractStridedSlice S1x128 ![0, 0] v slices_S4096x128_o0_0_S1x128⟩] concatenates_S4095x128_S1x128_S4096x128_d0
def rot2 (v : FVec F S4096x128 .f32) : FVec F S4096x128 .f32 :=
  concatenate S4096x128 0 [⟨S4094x128, extractStridedSlice S4094x128 ![2, 0] v slices_S4096x128_o2_0_S4094x128⟩,
    ⟨S2x128, extractStridedSlice S2x128 ![0, 0] v slices_S4096x128_o0_0_S2x128⟩] concatenates_S4094x128_S2x128_S4096x128_d0
def rot3 (v : FVec F S4096x128 .f32) : FVec F S4096x128 .f32 :=
  concatenate S4096x128 0 [⟨S4093x128, extractStridedSlice S4093x128 ![3, 0] v slices_S4096x128_o3_0_S4093x128⟩,
    ⟨S3x128, extractStridedSlice S3x128 ![0, 0] v slices_S4096x128_o0_0_S3x128⟩] concatenates_S4093x128_S3x128_S4096x128_d0

def bcat (v : FVec F S4096x128 .f32) : FVec F S4096x384 .f32 := cat3 (rot1 v) (rot2 v) (rot3 v)

def pos3 (y b : FVec F S4096x384 .f32) : FVec F S4096x3 .f32 :=
  matmul dot_S4096x384_S384x3_S4096x3_1_0_0_1_n_n none (mulf y b) cSel3 (constant S4096x3 .f32 0x00000000#32)

def blkMask (k : BitVec 32) : FVec F S384x16 .f32 :=
  broadcastTo S384x16 (sitofp .f32 (extui 32 (cmpi .eq cBlk (broadcast S384x1 k)) natLt_1_32)) broadcasts_S384x1_S384x16

def negRep (ng : FVec F S16x128 .f32) : FVec F S384x16 .f32 :=
  matmul dot_S384x128_S16x128_S384x16_1_1_0_0_n_n none cRep ng (constant S384x16 .f32 0x00000000#32)

def w2 (ng : FVec F S16x128 .f32) : FVec F S384x48 .f32 :=
  concatenate S384x48 1 [⟨S384x16, mulf (negRep ng) (blkMask 0#32)⟩, ⟨S384x16, mulf (negRep ng) (blkMask 1#32)⟩,
    ⟨S384x16, mulf (negRep ng) (blkMask 2#32)⟩] concatenates_S384x16_S384x16_S384x16_S384x48_d1

def negp (y : FVec F S4096x384 .f32) (ng : FVec F S16x128 .f32) : FVec F S4096x48 .f32 :=
  matmul dot_S4096x384_S384x48_S4096x48_1_0_0_1_n_n none y (w2 ng) (constant S4096x48 .f32 0x00000000#32)

def sumexp (y : FVec F S4096x384 .f32) (ng : FVec F S16x128 .f32) : FVec F S4096x3 .f32 :=
  matmul dot_S4096x48_S48x3_S4096x3_1_0_0_1_n_n none (exp (negp y ng)) cSelN (constant S4096x3 .f32 0x00000000#32)

def rowl (y b : FVec F S4096x384 .f32) (ng : FVec F S16x128 .f32) : FVec F S4096x3 .f32 :=
  mulf (subf (log (addf (exp (pos3 y b)) (sumexp y ng))) (pos3 y b)) cValid

def red (r : FVec F S4096x3 .f32) : F .f32 :=
  extractAt ![0, 0, 0] (shapeCast S1x1x1 (multiReduction .add [1, 2] S1
    (shapeCast S1x4096x3 (mulf r (broadcastTo S4096x3 cWgt broadcasts_S1x3_S4096x3)) shapeCasts_S4096x3_S1x4096x3)
    0x00000000#32 reduces_S1x4096x3_S1 (.inl rfl) rfl) shapeCasts_S1_S1x1x1) inpos_S1x1x1_p0_0_0

def flat4 (x : Vec F S1x1x4096x128 .f32) : FVec F S4096x128 .f32 := shapeCast S4096x128 x shapeCasts_S1x1x4096x128_S4096x128
def flat3 (x : Vec F S1x4096x128 .f32) : FVec F S4096x128 .f32 := shapeCast S4096x128 x shapeCasts_S1x4096x128_S4096x128
def flatN (x : Vec F S1x16x128 .f32) : FVec F S16x128 .f32 := shapeCast S16x128 x shapeCasts_S1x16x128_S16x128

def seqVal (xa xb xc : Vec F S1x1x4096x128 .f32) (ba : Vec F S1x4096x128 .f32) (na : Vec F S1x16x128 .f32) (len : Elt F .i32) : F .f32 :=
  red (rowl (ycat (flat4 xa) (flat4 xb) (flat4 xc) len) (bcat (flat3 ba)) (flatN na))

set_option maxRecDepth 65536 in
theorem acc0_eq (xa xb xc : Vec F S1x1x4096x128 .f32) (ba : Vec F S1x4096x128 .f32) (na : Vec F S1x16x128 .f32) (len : Elt F .i32) :
    acc0 xa xb xc ba na len = Scalar.addf (Scalar.ofBits .f32 0x00000000#32) (seqVal xa xb xc ba na len) := rfl

set_option maxRecDepth 65536 in
theorem out1_eq (acc : F .f32) (xa xb xc : Vec F S1x1x4096x128 .f32) (ba : Vec F S1x4096x128 .f32) (na : Vec F S1x16x128 .f32) (len : Elt F .i32)
    (prev : Vec F S1x1 .f32) :
    out1 acc xa xb xc ba na len prev
      = addf (shapeCast S1x1 prev shapeCasts_S1x1_S1x1) (broadcast S1x1 (Scalar.addf acc (seqVal xa xb xc ba na len))) := rfl

end Cert.KernelIdeal.KT

end
-- ==== Proof.KConst.lean ====
import proofs.«204919_g30640296690406_cont_9to1_308_17_alg».proof.Proof.KChain
import proofs.«204919_g30640296690406_cont_9to1_308_17_alg».proof.Proof.Spec
import Idealize.ShloMosaic.PureOps.Ideal.Laws
import Idealize.ShloMosaic.Lib.ValueLayout
import Idealize.ShloMosaic.Lib.Pipeline.Value
import Idealize.ShloMosaic.Lib.StableHlo.Predicate
import Idealize.ShloMosaic.Lib.Affine

noncomputable section

namespace Cert.KernelIdeal.KV

open Cert.KernelIdeal Cert.KernelIdeal.Gen Cert.KernelIdeal.KT
open Idealize.ShloMosaic Idealize.ShloMosaic.ValueIdx Idealize.ShloMosaic.StableHlo.Predicate

private theorem toNat_ofNat_of_lt {n : ℕ} (h : n < 2 ^ 32) : (BitVec.ofNat 32 n).toNat = n := by
  rw [BitVec.toNat_ofNat]; exact Nat.mod_eq_of_lt h

private theorem eq_iff {a b : ℕ} (ha : a < 2 ^ 32) (hb : b < 2 ^ 32) :
    IntOp.cmpi .eq (BitVec.ofNat 32 a) (BitVec.ofNat 32 b) = 1#1 ↔ a = b :=
  cmpi_eq_iff.trans ⟨fun h => by
    simpa only [toNat_ofNat_of_lt ha, toNat_ofNat_of_lt hb] using congrArg BitVec.toNat h, congrArg _⟩

private theorem mask_eq (b : BitVec 1) {P : Prop} [Decidable P] (h : b = 1#1 ↔ P) :
    FloatOps.sitofp (F := Ideal) FTy.f32 (BitVec.setWidth 32 b) = if P then (1 : EReal) else 0 := by
  rcases BitVec.eq_zero_or_eq_one b with rfl | rfl
  · show ((((BitVec.setWidth 32 (0#1)).toInt : ℤ) : ℝ) : EReal) = _
    rw [show (BitVec.setWidth 32 (0#1)).toInt = 0 from by decide, if_neg fun p => absurd (h.2 p) (by decide)]; simp
  · show ((((BitVec.setWidth 32 (1#1)).toInt : ℤ) : ℝ) : EReal) = _
    rw [show (BitVec.setWidth 32 (1#1)).toInt = 1 from by decide, if_pos (h.1 rfl)]; simp

private theorem bcast_const {s t : Shape} {α : Type} (c : α) (h : s.Broadcasts t) (j : t.Idx) :
    broadcastTo t (broadcast s c) h j = c := rfl

private theorem bcast_col3 {α : Type} (x : S4096x1.Idx → α) (t : Fin 4096) (s : Fin 3) :
    broadcastTo S4096x3 x broadcasts_S4096x1_S4096x3 (ix2 t s) = x (ix2 t (0 : Fin 1)) :=
  broadcastTo_apply x _ _ _ (fun a => match a with | ⟨0, _⟩ => rfl | ⟨1, _⟩ => rfl)

private theorem iota0 {n0 n1 : ℕ} (h : (⟨2, ![n0, n1]⟩ : Shape).Iotas .tc 32 [0]) (a : Fin n0) (b : Fin n1) :
    iota .tc (⟨2, ![n0, n1]⟩ : Shape) 32 [0] h (ix2 a b) = BitVec.ofNat 32 a.val :=
  iota_single_apply .tc _ 32 0 h (ix2 a b)

private theorem iota1 {n0 n1 : ℕ} (h : (⟨2, ![n0, n1]⟩ : Shape).Iotas .tc 32 [1]) (a : Fin n0) (b : Fin n1) :
    iota .tc (⟨2, ![n0, n1]⟩ : Shape) 32 [1] h (ix2 a b) = BitVec.ofNat 32 b.val :=
  iota_single_apply .tc _ 32 1 h (ix2 a b)

private theorem divsi_small (u : ArithUnit) {n d : ℕ} (hn : n < 2 ^ 31) (hd0 : 0 < d) (hd : d < 2 ^ 31) :
    IntOp.divsi u (BitVec.ofNat 32 n) (BitVec.ofNat 32 d) = BitVec.ofNat 32 (n / d) := by
  have hnn : (BitVec.ofNat 32 n).toNat = n := toNat_ofNat_of_lt (by omega)
  have hdd : (BitVec.ofNat 32 d).toNat = d := toNat_ofNat_of_lt (by omega)
  apply BitVec.eq_of_toNat_eq
  simp only [IntOp.divsi, if_neg (IntOp.not_corner_of_pos (by rw [toInt_ofNat_small d hd]; exact_mod_cast hd0)), BitVec.sdiv_eq,
    BitVec.msb_eq_false_iff_two_mul_lt.mpr (show 2 * (BitVec.ofNat 32 n).toNat < 2 ^ 32 by omega),
    BitVec.msb_eq_false_iff_two_mul_lt.mpr (show 2 * (BitVec.ofNat 32 d).toNat < 2 ^ 32 by omega), BitVec.udiv_eq, BitVec.toNat_udiv, hnn, hdd,
    toNat_ofNat_of_lt (lt_of_le_of_lt (Nat.div_le_self n d) (show n < 2 ^ 32 by omega))]

private theorem remsi_small (u : ArithUnit) {n d : ℕ} (hn : n < 2 ^ 31) (hd0 : 0 < d) (hd : d < 2 ^ 31) :
    IntOp.remsi u (BitVec.ofNat 32 n) (BitVec.ofNat 32 d) = BitVec.ofNat 32 (n % d) := by
  have hnn : (BitVec.ofNat 32 n).toNat = n := toNat_ofNat_of_lt (by omega)
  apply BitVec.eq_of_toNat_eq
  rw [IntOp.toNat_remsi u (by omega) d hd0 (by omega), hnn,
    toNat_ofNat_of_lt (lt_of_le_of_lt (Nat.mod_le n d) (show n < 2 ^ 32 by omega))]

private theorem slt_zero {n : ℕ} (hn : n < 2 ^ 31) : IntOp.cmpi .slt (BitVec.ofNat 32 n) 0#32 = 0#1 :=
  eq_zero_of_ne_one fun h => Nat.not_lt_zero _
    ((slt_iff_toNat (by rw [toNat_ofNat_of_lt (by omega)]; exact hn) (by decide)).1 h)

private theorem sgt_zero {n : ℕ} (h0 : 0 < n) (hn : n < 2 ^ 31) : IntOp.cmpi .sgt (BitVec.ofNat 32 n) 0#32 = 1#1 :=
  (sgt_iff_toNat (by rw [toNat_ofNat_of_lt (by omega)]; exact hn) (by decide)).2 (by rw [toNat_ofNat_of_lt (n := n) (by omega)]; exact h0)

private theorem floorDiv_eq (u : ArithUnit) {n d : ℕ} (hn : n < 2 ^ 31) (hd0 : 0 < d) (hd : d < 2 ^ 31) (K : BitVec 32) (hK : K = 1#32) :
    Scalar.select
      (IntOp.andi
        (IntOp.cmpi .ne (IntOp.subi (BitVec.setWidth 32 (IntOp.cmpi .sgt (BitVec.ofNat 32 n) 0#32))
          (BitVec.setWidth 32 (IntOp.cmpi .slt (BitVec.ofNat 32 n) 0#32))) K)
        (IntOp.cmpi .ne (IntOp.remsi u (BitVec.ofNat 32 n) (BitVec.ofNat 32 d)) 0#32))
      (IntOp.subi (IntOp.divsi u (BitVec.ofNat 32 n) (BitVec.ofNat 32 d)) 1#32)
      (IntOp.divsi u (BitVec.ofNat 32 n) (BitVec.ofNat 32 d)) = BitVec.ofNat 32 (n / d) := by
  rw [divsi_small u hn hd0 hd, remsi_small u hn hd0 hd]
  subst hK
  rcases Nat.eq_zero_or_pos n with rfl | h0
  · rw [Nat.zero_mod, show IntOp.cmpi .ne (BitVec.ofNat 32 0) 0#32 = 0#1 from by decide,
      show ∀ x : BitVec 1, IntOp.andi x 0#1 = 0#1 from by decide, select_zero]
  · rw [sgt_zero h0 hn, slt_zero hn,
      show IntOp.cmpi .ne (IntOp.subi (BitVec.setWidth 32 1#1) (BitVec.setWidth 32 0#1)) 1#32 = 0#1 from by decide,
      show ∀ x : BitVec 1, IntOp.andi 0#1 x = 0#1 from by decide, select_zero]

private theorem floorMod_eq (u : ArithUnit) {n d : ℕ} (hn : n < 2 ^ 31) (hd0 : 0 < d) (hd : d < 2 ^ 31) (K : BitVec 1) (hK : K = 0#1) :
    Scalar.select
      (IntOp.andi
        (IntOp.xori (IntOp.cmpi .slt (IntOp.remsi u (BitVec.ofNat 32 n) (BitVec.ofNat 32 d)) 0#32) K)
        (IntOp.cmpi .ne (IntOp.remsi u (BitVec.ofNat 32 n) (BitVec.ofNat 32 d)) 0#32))
      (IntOp.addi (IntOp.remsi u (BitVec.ofNat 32 n) (BitVec.ofNat 32 d)) (BitVec.ofNat 32 d))
      (IntOp.remsi u (BitVec.ofNat 32 n) (BitVec.ofNat 32 d)) = BitVec.ofNat 32 (n % d) := by
  rw [remsi_small u hn hd0 hd]
  subst hK
  have hm : n % d < 2 ^ 31 := lt_of_le_of_lt (Nat.mod_le n d) hn
  rw [slt_zero hm, show IntOp.xori 0#1 0#1 = 0#1 from by decide,
    show ∀ x : BitVec 1, IntOp.andi 0#1 x = 0#1 from by decide, select_zero]

private theorem sub_toNat {k s : ℕ} (hk : k < 2 ^ 32) (hs : s ≤ k) :
    (IntOp.subi (BitVec.ofNat 32 k) (BitVec.ofNat 32 s)).toNat = k - s := by
  show (BitVec.ofNat 32 k - BitVec.ofNat 32 s).toNat = _
  rw [BitVec.toNat_sub, toNat_ofNat_of_lt hk, toNat_ofNat_of_lt (n := s) (by omega)]
  omega

private theorem ofBits_one : Ideal.ofBits .f32 0x3F800000#32 = ((1 : ℝ) : EReal) := by
  simp [Ideal.ofBits, Ideal.ieee, -EReal.coe_mul]; norm_num

private theorem ofBits_24 : Ideal.ofBits .f32 0x41C00000#32 = ((24 : ℝ) : EReal) := by
  simp [Ideal.ofBits, Ideal.ieee, -EReal.coe_mul]; norm_num

theorem cRows_apply (t : Fin 4096) : cRows (ix2 t (0 : Fin 1)) = BitVec.ofNat 32 t.val := iota0 _ t 0

theorem cValid_apply (t : Fin 4096) (s : Fin 3) :
    cValid (F := Ideal) (ix2 t s) = if t.val + s.val + 1 < 4096 then (1 : EReal) else 0 := by
  unfold cValid k1_pay1
  simp only [sitofp, extui, cmpi, bcast_col3, broadcastTo_1b_ab_apply, subi, broadcast]
  rw [iota0, iota1]
  have h1 : (IntOp.subi 4095#32 (BitVec.ofNat 32 s.val)).toNat = 4095 - s.val := sub_toNat (by omega) (by omega)
  have h2 : (BitVec.ofNat 32 t.val).toNat = t.val := toNat_ofNat_of_lt (by omega)
  exact mask_eq _ ((slt_iff_toNat (by omega) (by omega)).trans (by rw [h1, h2]; omega))

theorem cWgt_apply (s : Fin 3) : cWgt (F := Ideal) (ix2 (0 : Fin 1) s) = ((Cert.Spec.wgt s : ℝ) : EReal) := by
  unfold cWgt k1_pay2
  simp only [divf, mulf, sitofp, subi, broadcast]
  rw [iota1]
  have h1 : (IntOp.subi 4095#32 (BitVec.ofNat 32 s.val)).toNat = 4095 - s.val := sub_toNat (by omega) (by omega)
  have h2 : (IntOp.subi 4095#32 (BitVec.ofNat 32 s.val)).toInt = ((4095 - s.val : ℕ) : ℤ) := by
    rw [toInt_eq_toNat_of_lt (by omega), h1]
  show Ideal.div (Ideal.ofBits .f32 0x3F800000#32)
    (Ideal.ofBits .f32 0x41C00000#32 * ((((IntOp.subi 4095#32 (BitVec.ofNat 32 s.val)).toInt : ℤ) : ℝ) : EReal)) = _
  have hpos : (0 : ℝ) < (((4095 - s.val : ℕ) : ℤ) : ℝ) := by exact_mod_cast (show 0 < 4095 - s.val by omega)
  rw [h2, ofBits_one, ofBits_24, ← EReal.coe_mul, Ideal.div_coe (ne_of_gt (by positivity)), ← EReal.coe_mul]
  congr 1
  unfold Cert.Spec.wgt
  push_cast [Nat.cast_sub (show s.val ≤ 4095 by omega)]
  ring

theorem cSel3_apply (r : Fin 384) (s : Fin 3) : cSel3 (F := Ideal) (ix2 r s) = if r.val / 128 = s.val then (1 : EReal) else 0 := by
  unfold cSel3 k1_pay3
  simp only [sitofp, extui, cmpi, subi, divsi, remsi, andi, select, broadcast]
  rw [iota0, iota1]
  rw [floorDiv_eq .vector (n := r.val) (d := 128) (by omega) (by omega) (by omega) _ (by decide)]
  exact mask_eq _ (eq_iff (by omega) (by omega))

theorem cRep_apply (r : Fin 384) (e : Fin 128) : cRep (F := Ideal) (ix2 r e) = if e.val = r.val % 128 then (1 : EReal) else 0 := by
  unfold cRep k1_pay4
  simp only [sitofp, extui, cmpi, subi, addi, xori, divsi, remsi, andi, select, bcast_const, broadcast]
  rw [iota0, iota1, show Scalar.select (Scalar.cmpi .eq 128#32 0#32) 1#32 128#32 = 128#32 from by decide]
  rw [floorMod_eq .vector (n := r.val) (d := 128) (by omega) (by omega) (by omega) _ (by decide)]
  exact mask_eq _ (eq_iff (by omega) (by omega))

theorem cBlk_apply (r : Fin 384) : cBlk (ix2 r (0 : Fin 1)) = BitVec.ofNat 32 (r.val / 128) := by
  unfold cBlk k1_pay5
  simp only [extui, cmpi, subi, divsi, remsi, andi, select, broadcast]
  rw [iota0]
  exact floorDiv_eq .vector (n := r.val) (d := 128) (by omega) (by omega) (by omega) _ (by decide)

theorem cSelN_apply (c : Fin 48) (s : Fin 3) : cSelN (F := Ideal) (ix2 c s) = if c.val / 16 = s.val then (1 : EReal) else 0 := by
  unfold cSelN k1_pay7 k1_pay6
  simp only [sitofp, extui, cmpi, subi, divsi, remsi, andi, select, broadcast]
  rw [iota0, iota1]
  rw [floorDiv_eq .vector (n := c.val) (d := 16) (by omega) (by omega) (by omega) _ (by decide)]
  exact mask_eq _ (eq_iff (by omega) (by omega))

theorem lenMask_apply (len : BitVec 32) (hl : 0 ≤ len.toInt ∧ len.toInt ≤ 4095) (t : Fin 4096) :
    lenMask (F := Ideal) len (ix2 t (0 : Fin 1)) = if t.val < len.toNat then (1 : EReal) else 0 := by
  unfold lenMask
  simp only [sitofp, extui, cmpi, broadcast]
  rw [cRows_apply]
  have h2 : (BitVec.ofNat 32 t.val).toNat = t.val := toNat_ofNat_of_lt (by omega)
  have h3 : len.toNat < 2 ^ 31 := by
    have := hl.1; have := BitVec.toInt_eq_toNat_cond len; have := len.isLt; omega
  exact mask_eq _ ((slt_iff_toNat (by omega) h3).trans (by rw [h2]))

theorem blkMask_apply (k : Fin 3) (r : Fin 384) (n : Fin 16) :
    blkMask (F := Ideal) (BitVec.ofNat 32 k.val) (ix2 r n) = if r.val / 128 = k.val then (1 : EReal) else 0 := by
  unfold blkMask
  rw [broadcastTo_apply _ _ (ix2 r n) (ix2 r (0 : Fin 1)) (fun a => match a with | ⟨0, _⟩ => rfl | ⟨1, _⟩ => rfl)]
  simp only [sitofp, extui, cmpi, broadcast]
  rw [cBlk_apply]
  exact mask_eq _ (eq_iff (by omega) (by omega))

end Cert.KernelIdeal.KV

end
-- ==== Proof.KLayout.lean ====
import proofs.«204919_g30640296690406_cont_9to1_308_17_alg».proof.Proof.KConst

noncomputable section

namespace Cert.KernelIdeal.KV

open Cert.KernelIdeal Cert.KernelIdeal.Gen Cert.KernelIdeal.KT
open Idealize.ShloMosaic Idealize.ShloMosaic.ValueIdx

def blk {B : ℕ} (s : Fin 3) (e : Fin B) : Fin (3 * B) := finProdFinEquiv (s, e)

theorem blk_div {B : ℕ} (s : Fin 3) (e : Fin B) : (blk s e).val / B = s.val := by
  show (e.val + B * s.val) / B = s.val
  rw [Nat.add_mul_div_left _ _ (Nat.zero_lt_of_lt e.isLt), Nat.div_eq_of_lt e.isLt, zero_add]

theorem blk_mod {B : ℕ} (s : Fin 3) (e : Fin B) : (blk s e).val % B = e.val := by
  show (e.val + B * s.val) % B = e.val
  rw [Nat.add_mul_mod_self_left, Nat.mod_eq_of_lt e.isLt]

abbrev col (s : Fin 3) (e : Fin 128) : Fin 384 := blk s e
abbrev ncol (s : Fin 3) (n : Fin 16) : Fin 48 := blk s n

theorem cat3_apply {α : Type} {m w : ℕ} (p : Fin 3 → (⟨2, ![m, w]⟩ : Shape).Idx → α)
    (h : Shape.Concatenates [(⟨2, ![m, w]⟩ : Shape), ⟨2, ![m, w]⟩, ⟨2, ![m, w]⟩] ⟨2, ![m, 3 * w]⟩ (1 : Fin 2))
    (s : Fin 3) (t : Fin m) (e : Fin w) :
    concatenate (⟨2, ![m, 3 * w]⟩ : Shape) (1 : Fin 2) [⟨⟨2, ![m, w]⟩, p 0⟩, ⟨⟨2, ![m, w]⟩, p 1⟩, ⟨⟨2, ![m, w]⟩, p 2⟩] h (ix2 t (blk s e))
      = p s (ix2 t e) := by
  have key : ∀ (s : Fin 3) k hk (x₁ : (⟨2, ![m, w]⟩ : Shape).Idx → α) hx pre hpre, pre + e.val = e.val + w * s.val → _ = x₁ (ix2 t e) :=
      fun s k hk x₁ hx pre hpre ha =>
    concatenate_apply_piece (t := ⟨2, ![m, 3 * w]⟩) (1 : Fin 2) [⟨⟨2, ![m, w]⟩, p 0⟩, ⟨⟨2, ![m, w]⟩, p 1⟩, ⟨⟨2, ![m, w]⟩, p 2⟩] h
      (ix2 t (blk s e)) k hk ⟨2, ![m, w]⟩ x₁ hx rfl pre hpre (ix2 t e)
      (fun b hb => match b with | ⟨0, _⟩ => rfl | ⟨1, _⟩ => absurd rfl hb) ha
  match s with
  | ⟨0, _⟩ => exact key 0 0 (by simp) (p 0) rfl 0 rfl (by show 0 + e.val = e.val + w * 0; omega)
  | ⟨1, _⟩ => exact key 1 1 (by simp) (p 1) rfl w rfl (by show w + e.val = e.val + w * 1; omega)
  | ⟨2, _⟩ => exact key 2 2 (by simp) (p 2) rfl (w + w) rfl (by show w + w + e.val = e.val + w * 2; omega)

private theorem rot_apply {α : Type} {m r : Nat} (hm : m + r = 4096) (v : (⟨2, ![4096, 128]⟩ : Shape).Idx → α)
    (h1 : (⟨2, ![4096, 128]⟩ : Shape).Slices ![r, 0] ⟨2, ![m, 128]⟩)
    (h2 : (⟨2, ![4096, 128]⟩ : Shape).Slices ![0, 0] ⟨2, ![r, 128]⟩)
    (hc : Shape.Concatenates [(⟨2, ![m, 128]⟩ : Shape), ⟨2, ![r, 128]⟩] ⟨2, ![4096, 128]⟩ (0 : Fin 2))
    (t : Fin 4096) (e : Fin 128) :
    concatenate (⟨2, ![4096, 128]⟩ : Shape) (0 : Fin 2)
        [⟨⟨2, ![m, 128]⟩, extractStridedSlice ⟨2, ![m, 128]⟩ ![r, 0] v h1⟩,
         ⟨⟨2, ![r, 128]⟩, extractStridedSlice ⟨2, ![r, 128]⟩ ![0, 0] v h2⟩] hc (ix2 t e)
      = v (ix2 ⟨(t.val + r) % 4096, Nat.mod_lt _ (by norm_num)⟩ e) := by
  by_cases ht : t.val < m
  · refine (concatenate_pair_apply_left (t := ⟨2, ![4096, 128]⟩) (s₁ := ⟨2, ![m, 128]⟩) (s₂ := ⟨2, ![r, 128]⟩) (0 : Fin 2) _ _ hc (ix2 t e) rfl (ix2 (⟨t.val, ht⟩ : Fin m) e)
      fun d => match d with | ⟨0, _⟩ => rfl | ⟨1, _⟩ => rfl).trans (slice2_axis0_apply r v h1 _ e _ ?_)
    show (t.val + r) % 4096 = r + t.val
    rw [Nat.mod_eq_of_lt (by omega)]; omega
  · have ht' : t.val - m < r := by omega
    refine (concatenate_pair_apply_right (t := ⟨2, ![4096, 128]⟩) (s₁ := ⟨2, ![m, 128]⟩) (s₂ := ⟨2, ![r, 128]⟩) (0 : Fin 2) _ _ hc (ix2 t e) rfl rfl (ix2 (⟨t.val - m, ht'⟩ : Fin r) e)
      (fun d hd => match d with | ⟨0, _⟩ => absurd rfl hd | ⟨1, _⟩ => rfl) (by show t.val - m + m = t.val; omega)).trans
      (slice2_axis0_apply 0 v h2 _ e _ ?_)
    show (t.val + r) % 4096 = 0 + (t.val - m)
    omega

private theorem rots_apply (v : FVec Ideal S4096x128 .f32) (s : Fin 3) (t : Fin 4096) (e : Fin 128) :
    (![rot1 (F := Ideal) v, rot2 v, rot3 v] s) (ix2 t e) = v (ix2 (Cert.Spec.nxt s t) e) := by
  match s with
  | ⟨0, _⟩ => exact (rot_apply (m := 4095) (r := 1) rfl v _ _ concatenates_S4095x128_S1x128_S4096x128_d0 t e).trans (by congr 2)
  | ⟨1, _⟩ => exact (rot_apply (m := 4094) (r := 2) rfl v _ _ concatenates_S4094x128_S2x128_S4096x128_d0 t e).trans (by congr 2)
  | ⟨2, _⟩ => exact (rot_apply (m := 4093) (r := 3) rfl v _ _ concatenates_S4093x128_S3x128_S4096x128_d0 t e).trans (by congr 2)

variable (x : Fin 3 → Fin 4096 → Fin 128 → ℝ) (bse : Fin 4096 → Fin 128 → ℝ)
variable (p : Fin 3 → FVec Ideal S4096x128 .f32) (bs : FVec Ideal S4096x128 .f32) (len : BitVec 32)

theorem ycat_apply (hp : ∀ s t e, p s (ix2 t e) = ((x s t e : ℝ) : EReal)) (hl : 0 ≤ len.toInt ∧ len.toInt ≤ 4095)
    (s : Fin 3) (t : Fin 4096) (e : Fin 128) :
    ycat (F := Ideal) (p 0) (p 1) (p 2) len (ix2 t (col s e)) = ((Cert.Spec.ce x len.toNat s t e : ℝ) : EReal) := by
  show cat3 (F := Ideal) (p 0) (p 1) (p 2) (ix2 t (col s e))
    * broadcastTo S4096x384 (lenMask (F := Ideal) len) broadcasts_S4096x1_S4096x384 (ix2 t (col s e)) = _
  rw [show cat3 (F := Ideal) (p 0) (p 1) (p 2) (ix2 t (col s e)) = _ from cat3_apply p concatenates_S4096x128_S4096x128_S4096x128_S4096x384_d1 s t e, hp,
    broadcastTo_apply _ _ (ix2 t (col s e)) (ix2 t (0 : Fin 1)) (fun d => match d with | ⟨0, _⟩ => rfl | ⟨1, _⟩ => rfl),
    lenMask_apply len hl t]
  unfold Cert.Spec.ce Cert.Spec.msk
  split_ifs <;> simp

theorem bcat_apply (hbs : ∀ t e, bs (ix2 t e) = ((bse t e : ℝ) : EReal)) (s : Fin 3) (t : Fin 4096) (e : Fin 128) :
    bcat (F := Ideal) bs (ix2 t (col s e)) = ((bse (Cert.Spec.nxt s t) e : ℝ) : EReal) :=
  (cat3_apply ![rot1 (F := Ideal) bs, rot2 bs, rot3 bs] concatenates_S4096x128_S4096x128_S4096x128_S4096x384_d1 s t e).trans ((rots_apply bs s t e).trans (hbs _ e))

end Cert.KernelIdeal.KV

end
-- ==== Proof.KLogits.lean ====
import proofs.«204919_g30640296690406_cont_9to1_308_17_alg».proof.Proof.KLayout

noncomputable section

namespace Cert.KernelIdeal.KV

open Cert.KernelIdeal Cert.KernelIdeal.Gen Cert.KernelIdeal.KT
open Idealize.ShloMosaic Idealize.ShloMosaic.ValueIdx

theorem coe_sum {ι : Type} (s : Finset ι) (f : ι → ℝ) :
    ((∑ i ∈ s, f i : ℝ) : EReal) = ∑ i ∈ s, ((f i : ℝ) : EReal) :=
  map_sum (⟨⟨Real.toEReal, EReal.coe_zero⟩, EReal.coe_add⟩ : ℝ →+ EReal) f s

/-- Only block `s` meets its own indicator. -/
theorem sum_blk_sel {B : ℕ} (f : Fin (3 * B) → EReal) (s : Fin 3) :
    ∑ k, f k * (if k.val / B = s.val then (1 : EReal) else 0) = ∑ e : Fin B, f (blk s e) := by
  rw [← (finProdFinEquiv (m := 3) (n := B)).sum_comp, Fintype.sum_prod_type, Fintype.sum_eq_single s]
  · exact Finset.sum_congr rfl fun e _ => by
      show f (blk s e) * (if (blk s e).val / B = s.val then 1 else 0) = _
      rw [if_pos (blk_div s e), mul_one]
  · exact fun s' hs' => Finset.sum_eq_zero fun e _ => by
      show f (blk s' e) * (if (blk s' e).val / B = s.val then 1 else 0) = 0
      rw [if_neg fun h => hs' (Fin.ext ((blk_div s' e).symm.trans h)), mul_zero]

theorem mm {sl sr so : Shape} (D : DotDims sl sr so) (K : ℕ) (hr : D.contr.rank = 1) (hs : D.contr.size ⟨0, by omega⟩ = K)
    (L : FVec Ideal sl .f32) (R : FVec Ideal sr .f32) (j : so.Idx) (li : Fin K → sl.Idx) (ri : Fin K → sr.Idx)
    (hl : ∀ q, D.lhsIdx j q = li (contrEquiv1 D K hr hs q) := by
      exact fun q => funext fun a => match a with | ⟨0, _⟩ => rfl | ⟨1, _⟩ => rfl)
    (hR : ∀ q, D.rhsIdx j q = ri (contrEquiv1 D K hr hs q) := by
      exact fun q => funext fun a => match a with | ⟨0, _⟩ => rfl | ⟨1, _⟩ => rfl) :
    matmul (F := Ideal) D none L R (constant so .f32 0x00000000#32) j = ∑ k, L (li k) * R (ri k) := by
  show FloatOps.matmul _ _ _ _ _ _ = _
  rw [Ideal.matmul_constant_zero_apply, ← (contrEquiv1 D K hr hs).sum_comp]
  exact Finset.sum_congr rfl fun q _ => by rw [hl, hR]

variable (x : Fin 3 → Fin 4096 → Fin 128 → ℝ) (bse : Fin 4096 → Fin 128 → ℝ) (ng : Fin 16 → Fin 128 → ℝ) (ℓ : ℕ)
variable (y bc : FVec Ideal S4096x384 .f32) (ngv : FVec Ideal S16x128 .f32)

theorem pos3_apply (hy : ∀ s t e, y (ix2 t (col s e)) = ((Cert.Spec.ce x ℓ s t e : ℝ) : EReal))
    (hbc : ∀ s t e, bc (ix2 t (col s e)) = ((bse (Cert.Spec.nxt s t) e : ℝ) : EReal)) (s : Fin 3) (t : Fin 4096) :
    pos3 (F := Ideal) y bc (ix2 t s) = ((Cert.Spec.pos x bse ℓ s t : ℝ) : EReal) := by
  unfold pos3 Cert.Spec.pos
  rw [mm dot_S4096x384_S384x3_S4096x3_1_0_0_1_n_n 384 rfl rfl _ _ (ix2 t s) (ix2 t ·) (ix2 · s), coe_sum]
  simp only [cSel3_apply]
  refine (sum_blk_sel (B := 128) (fun k => mulf y bc (ix2 t k)) s).trans (Finset.sum_congr rfl fun e _ => ?_)
  show mulf y bc (ix2 t (col s e)) = _
  rw [mulf_apply, hy, hbc, EReal.coe_mul]

private theorem negRep_apply (hng : ∀ n e, ngv (ix2 n e) = ((ng n e : ℝ) : EReal)) (r : Fin 384) (n : Fin 16) :
    negRep (F := Ideal) ngv (ix2 r n) = ((ng n ⟨r.val % 128, Nat.mod_lt _ (by norm_num)⟩ : ℝ) : EReal) := by
  unfold negRep
  rw [mm dot_S384x128_S16x128_S384x16_1_1_0_0_n_n 128 rfl rfl _ _ (ix2 r n) (ix2 r ·) (ix2 n ·),
    Finset.sum_eq_single (⟨r.val % 128, Nat.mod_lt _ (by norm_num)⟩ : Fin 128)
      (fun e _ he => by rw [cRep_apply, if_neg fun h => he (Fin.ext h), zero_mul]) (fun h => absurd (Finset.mem_univ _) h),
    cRep_apply, if_pos rfl, one_mul, hng]

private theorem w2_apply (hng : ∀ n e, ngv (ix2 n e) = ((ng n e : ℝ) : EReal)) (r : Fin 384) (s : Fin 3) (n : Fin 16) :
    w2 (F := Ideal) ngv (ix2 r (ncol s n))
      = ((ng n ⟨r.val % 128, Nat.mod_lt _ (by norm_num)⟩ : ℝ) : EReal) * (if r.val / 128 = s.val then 1 else 0) := by
  refine (cat3_apply (fun k => mulf (negRep (F := Ideal) ngv) (blkMask (BitVec.ofNat 32 k.val)))
    concatenates_S384x16_S384x16_S384x16_S384x48_d1 s r n).trans ?_
  rw [mulf_apply, negRep_apply ng ngv hng, blkMask_apply]

theorem negp_apply (hy : ∀ s t e, y (ix2 t (col s e)) = ((Cert.Spec.ce x ℓ s t e : ℝ) : EReal))
    (hng : ∀ n e, ngv (ix2 n e) = ((ng n e : ℝ) : EReal)) (s : Fin 3) (t : Fin 4096) (n : Fin 16) :
    negp (F := Ideal) y ngv (ix2 t (ncol s n)) = ((Cert.Spec.npred x ng ℓ s t n : ℝ) : EReal) := by
  unfold negp Cert.Spec.npred
  rw [mm dot_S4096x384_S384x48_S4096x48_1_0_0_1_n_n 384 rfl rfl _ _ (ix2 t (ncol s n)) (ix2 t ·) (ix2 · (ncol s n)), coe_sum]
  simp only [w2_apply ng ngv hng, ← mul_assoc]
  refine (sum_blk_sel (B := 128) (fun k => y (ix2 t k) * ((ng n ⟨k.val % 128, Nat.mod_lt _ (by norm_num)⟩ : ℝ) : EReal)) s).trans
    (Finset.sum_congr rfl fun e _ => ?_)
  show y (ix2 t (col s e)) * ((ng n ⟨(col s e).val % 128, _⟩ : ℝ) : EReal) = _
  rw [hy, EReal.coe_mul]
  congr 4
  exact blk_mod s e

theorem sumexp_apply (hy : ∀ s t e, y (ix2 t (col s e)) = ((Cert.Spec.ce x ℓ s t e : ℝ) : EReal))
    (hng : ∀ n e, ngv (ix2 n e) = ((ng n e : ℝ) : EReal)) (s : Fin 3) (t : Fin 4096) :
    sumexp (F := Ideal) y ngv (ix2 t s) = ((∑ n : Fin 16, Real.exp (Cert.Spec.npred x ng ℓ s t n) : ℝ) : EReal) := by
  unfold sumexp
  rw [mm dot_S4096x48_S48x3_S4096x3_1_0_0_1_n_n 48 rfl rfl _ _ (ix2 t s) (ix2 t ·) (ix2 · s), coe_sum]
  simp only [cSelN_apply]
  refine (sum_blk_sel (B := 16) (fun k => exp (negp (F := Ideal) y ngv) (ix2 t k)) s).trans (Finset.sum_congr rfl fun n _ => ?_)
  show Ideal.exp (negp (F := Ideal) y ngv (ix2 t (ncol s n))) = _
  rw [negp_apply x ng ℓ y ngv hy hng, Ideal.exp_coe]

end Cert.KernelIdeal.KV

end
-- ==== Proof.KSeq.lean ====
import proofs.«204919_g30640296690406_cont_9to1_308_17_alg».proof.Proof.KLogits

noncomputable section

namespace Cert.KernelIdeal.KV

open Cert.KernelIdeal Cert.KernelIdeal.Gen Cert.KernelIdeal.KT
open Idealize.ShloMosaic Idealize.ShloMosaic.ValueIdx

private theorem flat4_apply (v : Vec Ideal S1x1x4096x128 .f32) (t : Fin 4096) (e : Fin 128) :
    flat4 (F := Ideal) v (ix2 t e) = v (ix4 (0 : Fin 1) (0 : Fin 1) t e) :=
  shapeCast_apply v _ _ _ (by
    rw [Shape.rowMajor_val_four, Shape.rowMajor_val_two]
    show ((0 * 1 + 0) * 4096 + t.val) * 128 + e.val = t.val * 128 + e.val
    simp only [Nat.zero_mul, Nat.zero_add])

variable (x : Fin 3 → Fin 4096 → Fin 128 → ℝ) (bse : Fin 4096 → Fin 128 → ℝ) (ng : Fin 16 → Fin 128 → ℝ)

/-- The logarithm's argument is a sum of exponentials, so positive, and the logarithm is the real one. -/
private theorem rowl_apply (ℓ : ℕ) (y bc : FVec Ideal S4096x384 .f32) (ngv : FVec Ideal S16x128 .f32)
    (hy : ∀ s t e, y (ix2 t (col s e)) = ((Cert.Spec.ce x ℓ s t e : ℝ) : EReal))
    (hbc : ∀ s t e, bc (ix2 t (col s e)) = ((bse (Cert.Spec.nxt s t) e : ℝ) : EReal))
    (hng : ∀ n e, ngv (ix2 n e) = ((ng n e : ℝ) : EReal)) (t : Fin 4096) (s : Fin 3) :
    rowl (F := Ideal) y bc ngv (ix2 t s)
      = (((if t.val + s.val + 1 < 4096 then Cert.Spec.term x bse ng ℓ s t else 0 : ℝ)) : EReal) := by
  unfold rowl
  rw [mulf_apply, subf_apply, cValid_apply]
  show (Ideal.log (Ideal.exp (pos3 (F := Ideal) y bc (ix2 t s)) + sumexp (F := Ideal) y ngv (ix2 t s))
    - pos3 (F := Ideal) y bc (ix2 t s)) * _ = _
  rw [pos3_apply x bse ℓ y bc hy hbc s t, sumexp_apply x ng ℓ y ngv hy hng s t, Ideal.exp_coe, ← EReal.coe_add, Ideal.log_coe,
    if_neg (not_le.mpr (add_pos_of_pos_of_nonneg (Real.exp_pos _) (Finset.sum_nonneg fun _ _ => (Real.exp_pos _).le))),
    ← EReal.coe_sub]
  split_ifs
  · exact mul_one _
  · rw [mul_zero, EReal.coe_zero]

private theorem red_apply (r : FVec Ideal S4096x3 .f32) (g : Fin 4096 → Fin 3 → ℝ)
    (hr : ∀ t s, r (ix2 t s) = ((g t s : ℝ) : EReal)) :
    red (F := Ideal) r = ((∑ t : Fin 4096, ∑ s : Fin 3, g t s * Cert.Spec.wgt s : ℝ) : EReal) := by
  unfold red extractAt
  rw [shapeCast_apply _ shapeCasts_S1_S1x1x1 _ (ix1 (0 : Fin 1)) (by
    rw [Shape.rowMajor_val_one, Shape.rowMajor_val_three]; rfl)]
  refine (Ideal.multiReduction_add_total _ 0x00000000#32 reduces_S1x4096x3_S1 (fun b => match b with | ⟨0, _⟩ => rfl)
    (.inl rfl) rfl (ix1 (0 : Fin 1))).trans ?_
  show ∑ i, (mulf (F := Ideal) r (broadcastTo S4096x3 cWgt broadcasts_S1x3_S4096x3))
    (Shape.reshapeEquiv shapeCasts_S4096x3_S1x4096x3 i) = _
  rw [Equiv.sum_comp (Shape.reshapeEquiv shapeCasts_S4096x3_S1x4096x3)
    (mulf (F := Ideal) r (broadcastTo S4096x3 cWgt broadcasts_S1x3_S4096x3)), sum_idx2, coe_sum]
  refine Finset.sum_congr rfl fun t _ => (Finset.sum_congr rfl fun s _ => ?_).trans (coe_sum _ _).symm
  rw [mulf_apply, broadcastTo_1b_ab_apply, cWgt_apply, hr, EReal.coe_mul]

theorem seqVal_eq (xs : Fin 3 → Vec Ideal S1x1x4096x128 .f32) (ba : Vec Ideal S1x4096x128 .f32) (na : Vec Ideal S1x16x128 .f32)
    (len : BitVec 32) (hx : ∀ s t e, xs s (ix4 (0 : Fin 1) (0 : Fin 1) t e) = ((x s t e : ℝ) : EReal))
    (hba : ∀ t e, ba (ix3 (0 : Fin 1) t e) = ((bse t e : ℝ) : EReal))
    (hna : ∀ n e, na (ix3 (0 : Fin 1) n e) = ((ng n e : ℝ) : EReal))
    (hl : 0 ≤ len.toInt ∧ len.toInt ≤ 4095) :
    seqVal (F := Ideal) (xs 0) (xs 1) (xs 2) ba na len = ((Cert.Spec.seqLoss x bse ng len.toNat : ℝ) : EReal) := by
  unfold seqVal Cert.Spec.seqLoss
  rw [red_apply _ (fun t s => if t.val + s.val + 1 < 4096 then Cert.Spec.term x bse ng len.toNat s t else 0)
    (rowl_apply x bse ng len.toNat _ _ (flatN na)
      (ycat_apply x (fun s => flat4 (xs s)) len (fun s t e => (flat4_apply _ t e).trans (hx s t e)) hl)
      (bcat_apply bse (flat3 ba) fun t e => (shapeCast_1ab_ab_apply ba _ t e).trans (hba t e))
      fun n e => (shapeCast_1ab_ab_apply na _ n e).trans (hna n e)), Finset.sum_comm]
  simp only [ite_mul, zero_mul]

end Cert.KernelIdeal.KV

end
-- ==== Proof.KResult.lean ====
import proofs.«204919_g30640296690406_cont_9to1_308_17_alg».proof.Proof.KSeq

noncomputable section

namespace Cert.KernelIdeal.KV

open Cert.KernelIdeal Cert.KernelIdeal.Gen Cert.KernelIdeal.KT
open Idealize.ShloMosaic Idealize.ShloMosaic.ValueIdx

private theorem coe_toReal {a : EReal} (ha : ∃ r : ℝ, a = r) : a = ((a.toReal : ℝ) : EReal) := by
  obtain ⟨r, rfl⟩ := ha; rw [EReal.toReal_coe]

variable
    (gat : (⟨S32768x128, .f32⟩ : BufTy).Contents (Elt Ideal) → (⟨S128, .i32⟩ : BufTy).Contents (Elt Ideal) → (⟨S128x128, .f32⟩ : BufTy).Contents (Elt Ideal))
    (hgat : ∀ tbl ids (r : Fin 128) (e : Fin 128) (h : (ids (ix1 r)).toNat < 32768), gat tbl ids (ix2 r e) = tbl (ix2 ⟨(ids (ix1 r)).toNat, h⟩ e))
    (a0 : A0 (F := Ideal)) (a1 : A1 (F := Ideal)) (a2 : A2 (F := Ideal)) (a3 : A3 (F := Ideal)) (h : Cert.Spec.Dom a0 a1 a2 a3)

private def share (b : Fin 8) : ℝ :=
  Cert.Spec.seqLoss (Cert.Spec.sx a1 b) (Cert.Spec.sb a0 b) (Cert.Spec.sn a0 a3 b) (Cert.Spec.lenOf a2 b)

private theorem shapeCast_const {s t : Shape} {α : Type} (c : α) (h : s.ShapeCasts t) :
    shapeCast t (fun _ : s.Idx => c) h = fun _ => c := rfl

private theorem xPiece_apply (b : Fin 8) (s : Fin 3) (t : Fin 4096) (e : Fin 128) :
    xPiece (v0T a1) b s (ix4 (0 : Fin 1) (0 : Fin 1) t e) = a1 (ix4 b t e s) := by
  show v0T a1 (ix4 b s t e) = _
  unfold v0T
  exact transpose_apply _ a1 _ _ _ fun c => match c with | ⟨0, _⟩ => rfl | ⟨1, _⟩ => rfl | ⟨2, _⟩ => rfl | ⟨3, _⟩ => rfl

private theorem v1T_apply (v : ℕ) (hv : v < 32768) (e : Fin 128) :
    v1T a0 (ix2 (⟨v, hv⟩ : Fin 32768) e)
      = a0 (ix3 (⟨v / 4096 % 8, Nat.mod_lt _ (by norm_num)⟩ : Fin 8) (⟨v % 4096, Nat.mod_lt _ (by norm_num)⟩ : Fin 4096) e) := by
  unfold v1T
  refine shapeCast_apply _ _ _ _ ?_
  rw [Shape.rowMajor_val_three, Shape.rowMajor_val_two]
  show ((v / 4096 % 8) * 4096 + v % 4096) * 128 + e.val = v * 128 + e.val
  omega

private theorem v2T_apply (b : Fin 8) (n : Fin 16) (hr : 16 * b.val + n.val < 128) :
    v2T a3 (ix1 (⟨16 * b.val + n.val, hr⟩ : Fin 128)) = a3 (ix2 b n) := by
  unfold v2T
  refine shapeCast_apply _ _ _ _ ?_
  rw [Shape.rowMajor_val_two, Shape.rowMajor_val_one]
  show b.val * 16 + n.val = 16 * b.val + n.val
  omega

include hgat

private theorem nPiece_apply (hid : ∀ i, (a3 i).toNat < 32768) (b : Fin 8) (n : Fin 16) (e : Fin 128) :
    nPiece (v4T (gat (v1T a0) (v2T a3))) b (ix3 (0 : Fin 1) n e)
      = a0 (ix3 (Cert.Spec.pickOf a3 b n).1 (Cert.Spec.pickOf a3 b n).2 e) := by
  show v4T (gat (v1T a0) (v2T a3)) (ix3 b n e) = _
  have hr : 16 * b.val + n.val < 128 := by omega
  have e1 : v4T (gat (v1T a0) (v2T a3)) (ix3 b n e) = gat (v1T a0) (v2T a3) (ix2 (⟨16 * b.val + n.val, hr⟩ : Fin 128) e) := by
    unfold v4T
    refine shapeCast_apply _ _ _ _ ?_
    rw [Shape.rowMajor_val_two, Shape.rowMajor_val_three]
    show (16 * b.val + n.val) * 128 + e.val = (b.val * 16 + n.val) * 128 + e.val
    omega
  have e2 := v2T_apply a3 b n hr
  rw [e1, hgat _ _ _ _ (by rw [e2]; exact hid _)]
  simp only [e2]
  rw [v1T_apply]
  rfl

include h

private theorem seqVal_seq (b : Fin 8) :
    seqVal (F := Ideal) (xPiece (v0T a1) b 0) (xPiece (v0T a1) b 1) (xPiece (v0T a1) b 2) (bPiece a0 b)
        (nPiece (v4T (gat (v1T a0) (v2T a3))) b) (lenAt a2 b)
      = ((share a0 a1 a2 a3 b : ℝ) : EReal) :=
  seqVal_eq (Cert.Spec.sx a1 b) (Cert.Spec.sb a0 b) (Cert.Spec.sn a0 a3 b) (xPiece (v0T a1) b) _ _ (lenAt a2 b)
    (fun s t e => (xPiece_apply a1 b s t e).trans (coe_toReal (h.fin1 _)))
    (fun t e => coe_toReal (h.fin0 (ix3 b t e)))
    (fun n e => (nPiece_apply gat hgat a0 a3 (fun i => by
      have := h.ids i; have := BitVec.toInt_eq_toNat_cond (a3 i); have := (a3 i).isLt; omega) b n e).trans (coe_toReal (h.fin0 _)))
    (h.len (ix1 b))

private theorem pointOut_eq (g : Fin 4) (prev : Vec Ideal S1x1 .f32) (p : ℝ)
    (hp : ∀ i, (if g = 0 then k1_pay18 (F := Ideal) else prev : Vec Ideal S1x1 .f32) i = ((p : ℝ) : EReal)) :
    pointOut a2 (v0T a1) a0 (v4T (gat (v1T a0) (v2T a3))) g prev
      = fun _ => ((p + (share a0 a1 a2 a3 (seqA g) + share a0 a1 a2 a3 (seqB g)) : ℝ) : EReal) := by
  unfold pointOut
  rw [out1_eq, acc0_eq, seqVal_seq gat hgat a0 a1 a2 a3 h (seqA g), seqVal_seq gat hgat a0 a1 a2 a3 h (seqB g)]
  funext i
  rw [addf_apply, shapeCast_self, hp i, broadcast_apply]
  show ((p : ℝ) : EReal) + (Ideal.ofBits .f32 0x00000000#32 + _ + _) = _
  rw [Ideal.ofBits_zero_f32, zero_add, ← EReal.coe_add, ← EReal.coe_add]

omit hgat h in
private theorem seq_names : seqA 0 = 0 ∧ seqB 0 = 1 ∧ seqA 1 = 2 ∧ seqB 1 = 3 ∧ seqA 2 = 4 ∧ seqB 2 = 5 ∧ seqA 3 = 6 ∧ seqB 3 = 7 :=
  ⟨rfl, rfl, rfl, rfl, rfl, rfl, rfl, rfl⟩

omit hgat h in
theorem result_eq
    (gat : (⟨S32768x128, .f32⟩ : BufTy).Contents (Elt Ideal) → (⟨S128, .i32⟩ : BufTy).Contents (Elt Ideal) → (⟨S128x128, .f32⟩ : BufTy).Contents (Elt Ideal))
    (hgat : ∀ tbl ids (r : Fin 128) (e : Fin 128) (h : (ids (ix1 r)).toNat < 32768), gat tbl ids (ix2 r e) = tbl (ix2 ⟨(ids (ix1 r)).toNat, h⟩ e))
    (a0 : A0 (F := Ideal)) (a1 : A1 (F := Ideal)) (a2 : A2 (F := Ideal)) (a3 : A3 (F := Ideal)) (h : Cert.Spec.Dom a0 a1 a2 a3) :
    result (F := Ideal) gat a0 a1 a2 a3 = Cert.Spec.out a0 a1 a2 a3 := by
  unfold result v5T
  rw [pointOut_eq gat hgat a0 a1 a2 a3 h 0 _ 0 fun _ => Ideal.ofBits_zero_f32.trans EReal.coe_zero.symm,
    pointOut_eq gat hgat a0 a1 a2 a3 h 1 (fun _ => ((_ : ℝ) : EReal)) _ fun _ => rfl,
    pointOut_eq gat hgat a0 a1 a2 a3 h 2 (fun _ => ((_ : ℝ) : EReal)) _ fun _ => rfl,
    pointOut_eq gat hgat a0 a1 a2 a3 h 3 (fun _ => ((_ : ℝ) : EReal)) _ fun _ => rfl]
  unfold v6T
  rw [shapeCast_const]
  funext j
  show _ = ((Cert.Spec.loss (Cert.Spec.real3 a0) (Cert.Spec.real4 a1) (Cert.Spec.lenOf a2) (Cert.Spec.pickOf a3) : ℝ) : EReal)
  rw [Cert.Spec.loss_eq, Fin.sum_univ_eight]
  obtain ⟨e0, e1, e2, e3, e4, e5, e6, e7⟩ := seq_names
  rw [e0, e1, e2, e3, e4, e5, e6, e7]
  unfold share
  congr 1
  ring

end Cert.KernelIdeal.KV

end
-- ==== Proof.RefTerm.lean ====
import proofs.«204919_g30640296690406_cont_9to1_308_17_alg».proof.ReferenceIdeal
import proofs.«204919_g30640296690406_cont_9to1_308_17_alg».proof.Proof.Gen.ReferenceIdeal
import Idealize.ShloMosaic.PureOps.Ideal

noncomputable section

namespace Cert.ReferenceIdeal.RefTerm

open Idealize.ShloMosaic Idealize.SL.Sem Cert.ReferenceIdeal
open Cert.ReferenceIdeal.Facts₀ Cert.ReferenceIdeal.Facts

variable (a0 : (⟨S8x4096x128, .f32⟩ : BufTy).Contents (Elt Ideal)) (a1 : (⟨S8x4096x128x3, .f32⟩ : BufTy).Contents (Elt Ideal))
  (a2 : (⟨S8, .i32⟩ : BufTy).Contents (Elt Ideal)) (a3 : (⟨S8x16, .i32⟩ : BufTy).Contents (Elt Ideal))

def v0 :=
  iotaInDim S4096 32 0

def v1 :=
  broadcastInDim S1x4096 ![1] bcast_S4096_S1x4096_1 v0

def v2 :=
  broadcastInDim S8x1 ![0] bcast_S8_S8x1_0 a2

def v3 :=
  broadcastInDim S8x4096 ![0, 1] bcast_S1x4096_S8x4096_0_1 v1

def v4 :=
  broadcastInDim S8x4096 ![0, 1] bcast_S8x1_S8x4096_0_1 (v2 a2)

def v5 :=
  cmpi .slt v3 (v4 a2)

def v6 : (⟨S8x4096, .f32⟩ : BufTy).Contents (Elt Ideal) :=
  uitofp (F := Ideal) .f32 (v5 a2)

def v7 :=
  shapeCast S32768x128 a0 shapeCasts_S8x4096x128_S32768x128

def take_c :=
  constantI S_ 32 0#32

def take_v0 :=
  broadcastInDim S8x16 ![] bcast_S_S8x16 take_c

def take_v1 :=
  cmpi .slt a3 take_v0

def take_c_0 :=
  constantI S_ 32 32768#32

def take_v2 :=
  broadcastInDim S8x16 ![] bcast_S_S8x16 take_c_0

def take_v3 :=
  addi a3 take_v2

def take_v4 :=
  select (take_v1 a3) (take_v3 a3) a3

def take_v5 :=
  broadcastInDim S8x16x1 ![0, 1] bcast_S8x16_S8x16x1_0_1 (take_v4 a3)

def take_c_1 :=
  constantI S1 32 32767#32

def take_c_2 :=
  constantI S_ 32 0#32

def take_v6 :=
  broadcastInDim S8x16x1 ![] bcast_S_S8x16x1 take_c_2

def take_v7 :=
  cmpi .sge (take_v5 a3) take_v6

def take_v8 :=
  broadcastInDim S1x1x1 ![2] bcast_S1_S1x1x1_2 take_c_1

def take_v9 :=
  broadcastInDim S8x16x1 ![0, 1, 2] bcast_S1x1x1_S8x16x1_0_1_2 take_v8

def take_v10 :=
  cmpi .sle (take_v5 a3) take_v9

def take_v11 :=
  andi (take_v7 a3) (take_v10 a3)

def take_c_3 :=
  constantI S_ 1 1#1

def take_v12 :=
  Host.reduce IntOp.andi (take_v11 a3) take_c_3 reducesTo_S8x16x1_S8x16_d2 h_S_

def take_v13 :=
  Host.gather gather_S32768x128_S8x16x1_S8x16x128_2_0_n_n_0_2_1128 (v7 a0) (take_v5 a3)

def take_v14 :=
  broadcastInDim S8x16x128 ![0, 1] bcast_S8x16_S8x16x128_0_1 (take_v12 a3)

def take_cst :=
  constant (F := Ideal) S_ .f32 0x7FC00000#32

def take_v15 :=
  broadcastInDim S8x16x128 ![] bcast_S_S8x16x128 take_cst

def v8 : (⟨S8x16x128, .f32⟩ : BufTy).Contents (Elt Ideal) :=
  select (take_v14 a3) (take_v13 a0 a3) take_v15

def v9 :=
  broadcastInDim S8x4096x1x1 ![0, 1] bcast_S8x4096_S8x4096x1x1_0_1 (v6 a2)

def v10 :=
  broadcastInDim S8x4096x128x3 ![0, 1, 2, 3] bcast_S8x4096x1x1_S8x4096x128x3_0_1_2_3 (v9 a2)

def v11 : (⟨S8x4096x128x3, .f32⟩ : BufTy).Contents (Elt Ideal) :=
  mulf (F := Ideal) (φ := .f32) a1 (v10 a2)

def zero :=
  constant (F := Ideal) S_ .f32 0x00000000#32

def ninf :=
  constant (F := Ideal) S_ .f32 0xFF800000#32

section Step
variable {N : ℕ}

def ctx (s : Fin 3) (f1 : S8x4096x128x3.Slices ![0, 0, 0, s.val] ⟨4, ![8, N, 128, 1]⟩)
    (f2 : (⟨4, ![8, N, 128, 1]⟩ : Shape).ShapeCasts ⟨3, ![8, N, 128]⟩) : FVec Ideal ⟨3, ![8, N, 128]⟩ .f32 :=
  shapeCast ⟨3, ![8, N, 128]⟩ (extractStridedSlice ⟨4, ![8, N, 128, 1]⟩ ![0, 0, 0, s.val] (v11 a1 a2) f1) f2

def logits (s : Fin 3) (f1 : S8x4096x128x3.Slices ![0, 0, 0, s.val] ⟨4, ![8, N, 128, 1]⟩)
    (f2 : (⟨4, ![8, N, 128, 1]⟩ : Shape).ShapeCasts ⟨3, ![8, N, 128]⟩)
    (f3 : S8x4096x128.Slices ![0, s.val + 1, 0] ⟨3, ![8, N, 128]⟩)
    (f4 : (⟨3, ![8, N, 128]⟩ : Shape).ReducesTo [2] ⟨2, ![8, N]⟩)
    (f5 : (⟨2, ![8, N]⟩ : Shape).BroadcastsInDim ⟨3, ![8, N, 1]⟩ ![0, 1])
    (w : DotDims.WF ⟨3, ![8, N, 128]⟩ S8x16x128 ⟨3, ![8, N, 16]⟩ [2] [2] [1] [1] [0] [0])
    (f6 : Shape.Concatenates [⟨3, ![8, N, 1]⟩, ⟨3, ![8, N, 16]⟩] ⟨3, ![8, N, 17]⟩ 2) : FVec Ideal ⟨3, ![8, N, 17]⟩ .f32 :=
  concatenate ⟨3, ![8, N, 17]⟩ 2
    [⟨⟨3, ![8, N, 1]⟩, broadcastInDim ⟨3, ![8, N, 1]⟩ ![0, 1] f5 (Host.reduceAdd (F := Ideal) (φ := .f32)
        (mulf (F := Ideal) (φ := .f32) (ctx a1 a2 s f1 f2) (extractStridedSlice ⟨3, ![8, N, 128]⟩ ![0, s.val + 1, 0] a0 f3))
        zero f4 h_S_)⟩,
     ⟨⟨3, ![8, N, 16]⟩, Host.dotGeneral (F := Ideal) (φ₁ := .f32) (φ₂ := .f32)
        (⟨[2], [2], [1], [1], [0], [0], w⟩ : DotDims _ _ _) none (ctx a1 a2 s f1 f2) (v8 a0 a3)⟩] f6

variable (g1 : (⟨3, ![8, N, 17]⟩ : Shape).ReducesTo [2] ⟨2, ![8, N]⟩) (g2 : S_.BroadcastsInDim ⟨2, ![8, N]⟩ ![])
  (g3 : (⟨2, ![8, N]⟩ : Shape).BroadcastsInDim ⟨3, ![8, N, 1]⟩ ![0, 1])
  (g4 : (⟨3, ![8, N, 1]⟩ : Shape).BroadcastsInDim ⟨3, ![8, N, 17]⟩ ![0, 1, 2]) (x : FVec Ideal ⟨3, ![8, N, 17]⟩ .f32)

def rowMax : FVec Ideal ⟨2, ![8, N]⟩ .f32 :=
  maximumf (F := Ideal) (φ := .f32) (broadcastInDim ⟨2, ![8, N]⟩ ![] g2 ninf)
    (Host.reduce (FloatOps.maximumf (F := Ideal) (φ := .f32)) x ninf g1 h_S_)

def ctr : FVec Ideal ⟨3, ![8, N, 17]⟩ .f32 :=
  subf (F := Ideal) (φ := .f32) x (broadcastInDim ⟨3, ![8, N, 17]⟩ ![0, 1, 2] g4 (broadcastInDim ⟨3, ![8, N, 1]⟩ ![0, 1] g3 (rowMax g1 g2 x)))

def sumExp : FVec Ideal ⟨2, ![8, N]⟩ .f32 :=
  Host.reduceAdd (F := Ideal) (φ := .f32) (Host.exp (F := Ideal) (φ := .f32) (ctr g1 g2 g3 g4 x)) zero g1 h_S_

def lsm : FVec Ideal ⟨3, ![8, N, 17]⟩ .f32 :=
  subf (F := Ideal) (φ := .f32) (ctr g1 g2 g3 g4 x) (broadcastInDim ⟨3, ![8, N, 17]⟩ ![0, 1, 2] g4
    (Host.log (F := Ideal) (φ := .f32) (broadcastInDim ⟨3, ![8, N, 1]⟩ ![0, 1] g3 (sumExp g1 g2 g3 g4 x))))

def stepLoss (sl : (⟨3, ![8, N, 17]⟩ : Shape).Slices ![0, 0, 0] ⟨3, ![8, N, 1]⟩) (sc : (⟨3, ![8, N, 1]⟩ : Shape).ShapeCasts ⟨2, ![8, N]⟩)
    (hr : (⟨2, ![8, N]⟩ : Shape).ReducesTo [0, 1] S_) (cnt : FVec Ideal S_ .f32) (y : FVec Ideal ⟨3, ![8, N, 17]⟩ .f32) : FVec Ideal S_ .f32 :=
  Host.negf (F := Ideal) (φ := .f32) (Host.divf (F := Ideal) (φ := .f32) (Host.reduceAdd (F := Ideal) (φ := .f32)
    (shapeCast ⟨2, ![8, N]⟩ (extractStridedSlice ⟨3, ![8, N, 1]⟩ ![0, 0, 0] y sl) sc) zero hr h_S_) cnt)

end Step

def lsm0_v2 := rowMax reducesTo_S8x4095x17_S8x4095_d2 bcast_S_S8x4095
def lsm0_v5 := ctr reducesTo_S8x4095x17_S8x4095_d2 bcast_S_S8x4095 bcast_S8x4095_S8x4095x1_0_1 bcast_S8x4095x1_S8x4095x17_0_1_2
def lsm0_v7 := sumExp reducesTo_S8x4095x17_S8x4095_d2 bcast_S_S8x4095 bcast_S8x4095_S8x4095x1_0_1 bcast_S8x4095x1_S8x4095x17_0_1_2
def lsm0 := lsm reducesTo_S8x4095x17_S8x4095_d2 bcast_S_S8x4095 bcast_S8x4095_S8x4095x1_0_1 bcast_S8x4095x1_S8x4095x17_0_1_2

def v19 :=
  logits a0 a1 a2 a3 0 slices_S8x4096x128x3_S8x4095x128x1_0_0_0_0 shapeCasts_S8x4095x128x1_S8x4095x128
    slices_S8x4096x128_S8x4095x128_0_1_0 reducesTo_S8x4095x128_S8x4095_d2 bcast_S8x4095_S8x4095x1_0_1
    dot_S8x4095x128_S8x16x128_S8x4095x16_2_2_1_1_0_0_wf concatenates_S8x4095x1_S8x4095x16_S8x4095x17_d2

def v20 : (⟨S8x4095x17, .f32⟩ : BufTy).Contents (Elt Ideal) :=
  lsm0 (v19 a0 a1 a2 a3)

def count0 :=
  constant (F := Ideal) S_ .f32 0x46FFF000#32

def v25 : (⟨S_, .f32⟩ : BufTy).Contents (Elt Ideal) :=
  stepLoss slices_S8x4095x17_S8x4095x1_0_0_0 shapeCasts_S8x4095x1_S8x4095 reducesTo_S8x4095_S_d0_1 count0 (v20 a0 a1 a2 a3)

def lsm1_v2 := rowMax reducesTo_S8x4094x17_S8x4094_d2 bcast_S_S8x4094
def lsm1_v5 := ctr reducesTo_S8x4094x17_S8x4094_d2 bcast_S_S8x4094 bcast_S8x4094_S8x4094x1_0_1 bcast_S8x4094x1_S8x4094x17_0_1_2
def lsm1_v7 := sumExp reducesTo_S8x4094x17_S8x4094_d2 bcast_S_S8x4094 bcast_S8x4094_S8x4094x1_0_1 bcast_S8x4094x1_S8x4094x17_0_1_2
def lsm1 := lsm reducesTo_S8x4094x17_S8x4094_d2 bcast_S_S8x4094 bcast_S8x4094_S8x4094x1_0_1 bcast_S8x4094x1_S8x4094x17_0_1_2

def v33 :=
  logits a0 a1 a2 a3 1 slices_S8x4096x128x3_S8x4094x128x1_0_0_0_1 shapeCasts_S8x4094x128x1_S8x4094x128
    slices_S8x4096x128_S8x4094x128_0_2_0 reducesTo_S8x4094x128_S8x4094_d2 bcast_S8x4094_S8x4094x1_0_1
    dot_S8x4094x128_S8x16x128_S8x4094x16_2_2_1_1_0_0_wf concatenates_S8x4094x1_S8x4094x16_S8x4094x17_d2

def v34 : (⟨S8x4094x17, .f32⟩ : BufTy).Contents (Elt Ideal) :=
  lsm1 (v33 a0 a1 a2 a3)

def count1 :=
  constant (F := Ideal) S_ .f32 0x46FFE000#32

def v39 : (⟨S_, .f32⟩ : BufTy).Contents (Elt Ideal) :=
  stepLoss slices_S8x4094x17_S8x4094x1_0_0_0 shapeCasts_S8x4094x1_S8x4094 reducesTo_S8x4094_S_d0_1 count1 (v34 a0 a1 a2 a3)

def lsm2_v2 := rowMax reducesTo_S8x4093x17_S8x4093_d2 bcast_S_S8x4093
def lsm2_v5 := ctr reducesTo_S8x4093x17_S8x4093_d2 bcast_S_S8x4093 bcast_S8x4093_S8x4093x1_0_1 bcast_S8x4093x1_S8x4093x17_0_1_2
def lsm2_v7 := sumExp reducesTo_S8x4093x17_S8x4093_d2 bcast_S_S8x4093 bcast_S8x4093_S8x4093x1_0_1 bcast_S8x4093x1_S8x4093x17_0_1_2
def lsm2 := lsm reducesTo_S8x4093x17_S8x4093_d2 bcast_S_S8x4093 bcast_S8x4093_S8x4093x1_0_1 bcast_S8x4093x1_S8x4093x17_0_1_2

def v47 :=
  logits a0 a1 a2 a3 2 slices_S8x4096x128x3_S8x4093x128x1_0_0_0_2 shapeCasts_S8x4093x128x1_S8x4093x128
    slices_S8x4096x128_S8x4093x128_0_3_0 reducesTo_S8x4093x128_S8x4093_d2 bcast_S8x4093_S8x4093x1_0_1
    dot_S8x4093x128_S8x16x128_S8x4093x16_2_2_1_1_0_0_wf concatenates_S8x4093x1_S8x4093x16_S8x4093x17_d2

def v48 : (⟨S8x4093x17, .f32⟩ : BufTy).Contents (Elt Ideal) :=
  lsm2 (v47 a0 a1 a2 a3)

def count2 :=
  constant (F := Ideal) S_ .f32 0x46FFD000#32

def v53 : (⟨S_, .f32⟩ : BufTy).Contents (Elt Ideal) :=
  stepLoss slices_S8x4093x17_S8x4093x1_0_0_0 shapeCasts_S8x4093x1_S8x4093 reducesTo_S8x4093_S_d0_1 count2 (v48 a0 a1 a2 a3)

def v54 :=
  broadcastInDim S1 ![] bcast_S_S1 (v25 a0 a1 a2 a3)

def v55 :=
  broadcastInDim S1 ![] bcast_S_S1 (v39 a0 a1 a2 a3)

def v56 :=
  broadcastInDim S1 ![] bcast_S_S1 (v53 a0 a1 a2 a3)

def v57 :=
  concatenate S3 0 [⟨S1, v54 a0 a1 a2 a3⟩, ⟨S1, v55 a0 a1 a2 a3⟩, ⟨S1, v56 a0 a1 a2 a3⟩] concatenates_S1_S1_S1_S3_d0

def v58 :=
  Host.reduceAdd (F := Ideal) (φ := .f32) (v57 a0 a1 a2 a3) zero reducesTo_S3_S_d0 h_S_

def three :=
  constant (F := Ideal) S_ .f32 0x40400000#32

def result : (⟨S_, .f32⟩ : BufTy).Contents (Elt Ideal) :=
  Host.divf (F := Ideal) (φ := .f32) (v58 a0 a1 a2 a3) three

end Cert.ReferenceIdeal.RefTerm

end
-- ==== Proof.RefRun.lean ====
import proofs.«204919_g30640296690406_cont_9to1_308_17_alg».proof.Proof.RefTerm
import proofs.«204919_g30640296690406_cont_9to1_308_17_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

theorem ofBuf_toBuf {T : BufTy} {Val : EltTy → Type} (x : TRef sig T) (v : T.Contents Val) : x.ofBuf (x.toBuf v) = v := by
  obtain ⟨r, h, _, _⟩ := x
  subst h
  rfl

abbrev part0 : List (HloOp τ sig (Elt F)) :=
  [ nullary main_v0 (iotaInDim S4096 32 0),
    unary main_v0 main_v1 (broadcastInDim S1x4096 ![1] bcast_S4096_S1x4096_1),
    unary main_arg2 main_v2 (broadcastInDim S8x1 ![0] bcast_S8_S8x1_0),
    unary main_v1 main_v3 (broadcastInDim S8x4096 ![0, 1] bcast_S1x4096_S8x4096_0_1),
    unary main_v2 main_v4 (broadcastInDim S8x4096 ![0, 1] bcast_S8x1_S8x4096_0_1),
    binary main_v3 main_v4 main_v5 (cmpi .slt),
    unary main_v5 main_v6 (uitofp .f32),
    reshape main_arg0 main_v7 rfl shapeCasts_S8x4096x128_S32768x128,
    TRef.nullary main_call0.c (constantI S_ 32 0#32),
    TRef.unary main_call0.c main_call0.v0 (broadcastInDim S8x16 ![] bcast_S_S8x16),
    TRef.binary (TRef.of main_arg3 : TRef sig ⟨S8x16, .i32⟩) main_call0.v0 main_call0.v1 (cmpi .slt),
    TRef.nullary main_call0.c_0 (constantI S_ 32 32768#32),
    TRef.unary main_call0.c_0 main_call0.v2 (broadcastInDim S8x16 ![] bcast_S_S8x16),
    TRef.binary (TRef.of main_arg3 : TRef sig ⟨S8x16, .i32⟩) main_call0.v2 main_call0.v3 addi,
    TRef.ternary main_call0.v1 main_call0.v3 (TRef.of main_arg3 : TRef sig ⟨S8x16, .i32⟩) main_call0.call0.v0 select,
    TRef.unary main_call0.call0.v0 main_call0.v5 (broadcastInDim S8x16x1 ![0, 1] bcast_S8x16_S8x16x1_0_1),
    TRef.nullary main_call0.c_1 (constantI S1 32 32767#32),
    TRef.nullary main_call0.c_2 (constantI S_ 32 0#32),
    TRef.unary main_call0.c_2 main_call0.v6 (broadcastInDim S8x16x1 ![] bcast_S_S8x16x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S8x16x1 ![0, 1, 2] bcast_S1x1x1_S8x16x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S8x16x1_S8x16_d2 h_S_),
    TRef.binary (TRef.of main_v7 : TRef sig ⟨S32768x128, .f32⟩) main_call0.v5 main_call0.v13 (fun x i => Host.gather gather_S32768x128_S8x16x1_S8x16x128_2_0_n_n_0_2_1128 x i),
    TRef.unary main_call0.v12 main_call0.v14 (broadcastInDim S8x16x128 ![0, 1] bcast_S8x16_S8x16x128_0_1),
    TRef.nullary main_call0.cst (constant S_ .f32 0x7FC00000#32),
    TRef.unary main_call0.cst main_call0.v15 (broadcastInDim S8x16x128 ![] bcast_S_S8x16x128),
    TRef.ternary main_call0.v14 main_call0.v13 main_call0.v15 main_call0.v16 select ]

abbrev part1 : List (HloOp τ sig (Elt F)) :=
  [ unary main_v6 main_v9 (broadcastInDim S8x4096x1x1 ![0, 1] bcast_S8x4096_S8x4096x1x1_0_1),
    unary main_v9 main_v10 (broadcastInDim S8x4096x128x3 ![0, 1, 2, 3] bcast_S8x4096x1x1_S8x4096x128x3_0_1_2_3),
    binary main_arg1 main_v10 main_v11 mulf,
    unary main_v11 main_v12 (extractStridedSlice S8x4095x128x1 ![0, 0, 0, 0] · slices_S8x4096x128x3_S8x4095x128x1_0_0_0_0),
    reshape main_v12 main_v13 rfl shapeCasts_S8x4095x128x1_S8x4095x128,
    unary main_arg0 main_v14 (extractStridedSlice S8x4095x128 ![0, 1, 0] · slices_S8x4096x128_S8x4095x128_0_1_0),
    binary main_v13 main_v14 main_v15 mulf,
    nullary main_cst (constant S_ .f32 0x00000000#32),
    binary main_v15 main_cst main_v16 (fun x v => Host.reduceAdd x v reducesTo_S8x4095x128_S8x4095_d2 h_S_),
    binary main_v13 main_v8 main_v17 (fun l r => Host.dotGeneral dot_S8x4095x128_S8x16x128_S8x4095x16_2_2_1_1_0_0 none l r),
    unary main_v16 main_v18 (broadcastInDim S8x4095x1 ![0, 1] bcast_S8x4095_S8x4095x1_0_1),
    binary main_v18 main_v17 main_v19 (fun a b => concatenate S8x4095x17 2 [⟨S8x4095x1, a⟩, ⟨S8x4095x16, b⟩] concatenates_S8x4095x1_S8x4095x16_S8x4095x17_d2) ]

abbrev part2 : List (HloOp τ sig (Elt F)) :=
  [ TRef.nullary main_call1.cst (constant S_ .f32 0xFF800000#32),
    TRef.binary (TRef.of main_v19 : TRef sig ⟨S8x4095x17, .f32⟩) main_call1.cst main_call1.v0 (fun x v => Host.reduce FloatOps.maximumf x v reducesTo_S8x4095x17_S8x4095_d2 h_S_),
    TRef.nullary main_call1.cst_0 (constant S_ .f32 0xFF800000#32),
    TRef.unary main_call1.cst_0 main_call1.v1 (broadcastInDim S8x4095 ![] bcast_S_S8x4095),
    TRef.binary main_call1.v1 main_call1.v0 main_call1.v2 maximumf ]

abbrev part3 : List (HloOp τ sig (Elt F)) :=
  [ TRef.unary main_call1.v2 main_call1.v3 (broadcastInDim S8x4095x1 ![0, 1] bcast_S8x4095_S8x4095x1_0_1),
    TRef.unary main_call1.v3 main_call1.v4 (broadcastInDim S8x4095x17 ![0, 1, 2] bcast_S8x4095x1_S8x4095x17_0_1_2),
    TRef.binary (TRef.of main_v19 : TRef sig ⟨S8x4095x17, .f32⟩) main_call1.v4 main_call1.v5 subf ]

abbrev part4 : List (HloOp τ sig (Elt F)) :=
  [ TRef.unary main_call1.v5 main_call1.v6 Host.exp,
    TRef.nullary main_call1.cst_1 (constant S_ .f32 0x00000000#32),
    TRef.binary main_call1.v6 main_call1.cst_1 main_call1.v7 (fun x v => Host.reduceAdd x v reducesTo_S8x4095x17_S8x4095_d2 h_S_) ]

abbrev part5 : List (HloOp τ sig (Elt F)) :=
  [ TRef.unary main_call1.v7 main_call1.v8 (broadcastInDim S8x4095x1 ![0, 1] bcast_S8x4095_S8x4095x1_0_1),
    TRef.unary main_call1.v8 main_call1.v9 Host.log,
    TRef.unary main_call1.v9 main_call1.v10 (broadcastInDim S8x4095x17 ![0, 1, 2] bcast_S8x4095x1_S8x4095x17_0_1_2),
    TRef.binary main_call1.v5 main_call1.v10 main_call1.v11 subf ]

abbrev part6 : List (HloOp τ sig (Elt F)) :=
  [ unary main_v20 main_v21 (extractStridedSlice S8x4095x1 ![0, 0, 0] · slices_S8x4095x17_S8x4095x1_0_0_0),
    reshape main_v21 main_v22 rfl shapeCasts_S8x4095x1_S8x4095,
    nullary main_cst_0 (constant S_ .f32 0x00000000#32),
    binary main_v22 main_cst_0 main_v23 (fun x v => Host.reduceAdd x v reducesTo_S8x4095_S_d0_1 h_S_),
    nullary main_cst_1 (constant S_ .f32 0x46FFF000#32),
    binary main_v23 main_cst_1 main_v24 Host.divf,
    unary main_v24 main_v25 Host.negf ]

abbrev part7 : List (HloOp τ sig (Elt F)) :=
  [ unary main_v11 main_v26 (extractStridedSlice S8x4094x128x1 ![0, 0, 0, 1] · slices_S8x4096x128x3_S8x4094x128x1_0_0_0_1),
    reshape main_v26 main_v27 rfl shapeCasts_S8x4094x128x1_S8x4094x128,
    unary main_arg0 main_v28 (extractStridedSlice S8x4094x128 ![0, 2, 0] · slices_S8x4096x128_S8x4094x128_0_2_0),
    binary main_v27 main_v28 main_v29 mulf,
    nullary main_cst_2 (constant S_ .f32 0x00000000#32),
    binary main_v29 main_cst_2 main_v30 (fun x v => Host.reduceAdd x v reducesTo_S8x4094x128_S8x4094_d2 h_S_),
    binary main_v27 main_v8 main_v31 (fun l r => Host.dotGeneral dot_S8x4094x128_S8x16x128_S8x4094x16_2_2_1_1_0_0 none l r),
    unary main_v30 main_v32 (broadcastInDim S8x4094x1 ![0, 1] bcast_S8x4094_S8x4094x1_0_1),
    binary main_v32 main_v31 main_v33 (fun a b => concatenate S8x4094x17 2 [⟨S8x4094x1, a⟩, ⟨S8x4094x16, b⟩] concatenates_S8x4094x1_S8x4094x16_S8x4094x17_d2) ]

abbrev part8 : List (HloOp τ sig (Elt F)) :=
  [ TRef.nullary main_call2.cst (constant S_ .f32 0xFF800000#32),
    TRef.binary (TRef.of main_v33 : TRef sig ⟨S8x4094x17, .f32⟩) main_call2.cst main_call2.v0 (fun x v => Host.reduce FloatOps.maximumf x v reducesTo_S8x4094x17_S8x4094_d2 h_S_),
    TRef.nullary main_call2.cst_0 (constant S_ .f32 0xFF800000#32),
    TRef.unary main_call2.cst_0 main_call2.v1 (broadcastInDim S8x4094 ![] bcast_S_S8x4094),
    TRef.binary main_call2.v1 main_call2.v0 main_call2.v2 maximumf ]

abbrev part9 : List (HloOp τ sig (Elt F)) :=
  [ TRef.unary main_call2.v2 main_call2.v3 (broadcastInDim S8x4094x1 ![0, 1] bcast_S8x4094_S8x4094x1_0_1),
    TRef.unary main_call2.v3 main_call2.v4 (broadcastInDim S8x4094x17 ![0, 1, 2] bcast_S8x4094x1_S8x4094x17_0_1_2),
    TRef.binary (TRef.of main_v33 : TRef sig ⟨S8x4094x17, .f32⟩) main_call2.v4 main_call2.v5 subf ]

abbrev part10 : List (HloOp τ sig (Elt F)) :=
  [ TRef.unary main_call2.v5 main_call2.v6 Host.exp,
    TRef.nullary main_call2.cst_1 (constant S_ .f32 0x00000000#32),
    TRef.binary main_call2.v6 main_call2.cst_1 main_call2.v7 (fun x v => Host.reduceAdd x v reducesTo_S8x4094x17_S8x4094_d2 h_S_) ]

abbrev part11 : List (HloOp τ sig (Elt F)) :=
  [ TRef.unary main_call2.v7 main_call2.v8 (broadcastInDim S8x4094x1 ![0, 1] bcast_S8x4094_S8x4094x1_0_1),
    TRef.unary main_call2.v8 main_call2.v9 Host.log,
    TRef.unary main_call2.v9 main_call2.v10 (broadcastInDim S8x4094x17 ![0, 1, 2] bcast_S8x4094x1_S8x4094x17_0_1_2),
    TRef.binary main_call2.v5 main_call2.v10 main_call2.v11 subf ]

abbrev part12 : List (HloOp τ sig (Elt F)) :=
  [ unary main_v34 main_v35 (extractStridedSlice S8x4094x1 ![0, 0, 0] · slices_S8x4094x17_S8x4094x1_0_0_0),
    reshape main_v35 main_v36 rfl shapeCasts_S8x4094x1_S8x4094,
    nullary main_cst_3 (constant S_ .f32 0x00000000#32),
    binary main_v36 main_cst_3 main_v37 (fun x v => Host.reduceAdd x v reducesTo_S8x4094_S_d0_1 h_S_),
    nullary main_cst_4 (constant S_ .f32 0x46FFE000#32),
    binary main_v37 main_cst_4 main_v38 Host.divf,
    unary main_v38 main_v39 Host.negf ]

abbrev part13 : List (HloOp τ sig (Elt F)) :=
  [ unary main_v11 main_v40 (extractStridedSlice S8x4093x128x1 ![0, 0, 0, 2] · slices_S8x4096x128x3_S8x4093x128x1_0_0_0_2),
    reshape main_v40 main_v41 rfl shapeCasts_S8x4093x128x1_S8x4093x128,
    unary main_arg0 main_v42 (extractStridedSlice S8x4093x128 ![0, 3, 0] · slices_S8x4096x128_S8x4093x128_0_3_0),
    binary main_v41 main_v42 main_v43 mulf,
    nullary main_cst_5 (constant S_ .f32 0x00000000#32),
    binary main_v43 main_cst_5 main_v44 (fun x v => Host.reduceAdd x v reducesTo_S8x4093x128_S8x4093_d2 h_S_),
    binary main_v41 main_v8 main_v45 (fun l r => Host.dotGeneral dot_S8x4093x128_S8x16x128_S8x4093x16_2_2_1_1_0_0 none l r),
    unary main_v44 main_v46 (broadcastInDim S8x4093x1 ![0, 1] bcast_S8x4093_S8x4093x1_0_1),
    binary main_v46 main_v45 main_v47 (fun a b => concatenate S8x4093x17 2 [⟨S8x4093x1, a⟩, ⟨S8x4093x16, b⟩] concatenates_S8x4093x1_S8x4093x16_S8x4093x17_d2) ]

abbrev part14 : List (HloOp τ sig (Elt F)) :=
  [ TRef.nullary main_call3.cst (constant S_ .f32 0xFF800000#32),
    TRef.binary (TRef.of main_v47 : TRef sig ⟨S8x4093x17, .f32⟩) main_call3.cst main_call3.v0 (fun x v => Host.reduce FloatOps.maximumf x v reducesTo_S8x4093x17_S8x4093_d2 h_S_),
    TRef.nullary main_call3.cst_0 (constant S_ .f32 0xFF800000#32),
    TRef.unary main_call3.cst_0 main_call3.v1 (broadcastInDim S8x4093 ![] bcast_S_S8x4093),
    TRef.binary main_call3.v1 main_call3.v0 main_call3.v2 maximumf ]

abbrev part15 : List (HloOp τ sig (Elt F)) :=
  [ TRef.unary main_call3.v2 main_call3.v3 (broadcastInDim S8x4093x1 ![0, 1] bcast_S8x4093_S8x4093x1_0_1),
    TRef.unary main_call3.v3 main_call3.v4 (broadcastInDim S8x4093x17 ![0, 1, 2] bcast_S8x4093x1_S8x4093x17_0_1_2),
    TRef.binary (TRef.of main_v47 : TRef sig ⟨S8x4093x17, .f32⟩) main_call3.v4 main_call3.v5 subf ]

abbrev part16 : List (HloOp τ sig (Elt F)) :=
  [ TRef.unary main_call3.v5 main_call3.v6 Host.exp,
    TRef.nullary main_call3.cst_1 (constant S_ .f32 0x00000000#32),
    TRef.binary main_call3.v6 main_call3.cst_1 main_call3.v7 (fun x v => Host.reduceAdd x v reducesTo_S8x4093x17_S8x4093_d2 h_S_) ]

abbrev part17 : List (HloOp τ sig (Elt F)) :=
  [ TRef.unary main_call3.v7 main_call3.v8 (broadcastInDim S8x4093x1 ![0, 1] bcast_S8x4093_S8x4093x1_0_1),
    TRef.unary main_call3.v8 main_call3.v9 Host.log,
    TRef.unary main_call3.v9 main_call3.v10 (broadcastInDim S8x4093x17 ![0, 1, 2] bcast_S8x4093x1_S8x4093x17_0_1_2),
    TRef.binary main_call3.v5 main_call3.v10 main_call3.v11 subf ]

abbrev part18 : List (HloOp τ sig (Elt F)) :=
  [ unary main_v48 main_v49 (extractStridedSlice S8x4093x1 ![0, 0, 0] · slices_S8x4093x17_S8x4093x1_0_0_0),
    reshape main_v49 main_v50 rfl shapeCasts_S8x4093x1_S8x4093,
    nullary main_cst_6 (constant S_ .f32 0x00000000#32),
    binary main_v50 main_cst_6 main_v51 (fun x v => Host.reduceAdd x v reducesTo_S8x4093_S_d0_1 h_S_),
    nullary main_cst_7 (constant S_ .f32 0x46FFD000#32),
    binary main_v51 main_cst_7 main_v52 Host.divf,
    unary main_v52 main_v53 Host.negf ]

abbrev part19 : List (HloOp τ sig (Elt F)) :=
  [ unary main_v25 main_v54 (broadcastInDim S1 ![] bcast_S_S1),
    unary main_v39 main_v55 (broadcastInDim S1 ![] bcast_S_S1),
    unary main_v53 main_v56 (broadcastInDim S1 ![] bcast_S_S1),
    nary ![main_v54, main_v55, main_v56] main_v57 (fun u => concatenate S3 0 [⟨S1, u 0⟩, ⟨S1, u 1⟩, ⟨S1, u 2⟩] concatenates_S1_S1_S1_S3_d0),
    nullary main_cst_8 (constant S_ .f32 0x00000000#32),
    binary main_v57 main_cst_8 main_v58 (fun x v => Host.reduceAdd x v reducesTo_S3_S_d0 h_S_),
    nullary main_cst_9 (constant S_ .f32 0x40400000#32),
    binary main_v58 main_cst_9 main_v59 Host.divf ]

abbrev ops : List (HloOp τ sig (Elt F)) :=
  part0 ++ (part1 ++ (part2 ++ (part3 ++ (part4 ++ (part5 ++ (part6 ++ (part7 ++ (part8 ++ (part9 ++ (part10 ++ (part11 ++ (part12 ++ (part13 ++ (part14 ++ (part15 ++ (part16 ++ (part17 ++ (part18 ++ (part19)))))))))))))))))))

-- both sides are one chain of `hlo` steps once the calls are unfolded and sequencing is reassociated
set_option maxHeartbeats 4000000 in
theorem main_eq (c : Dev nD) : main (F := F) c = seq ops := by
  simp only [main, main_part0, main_part1, fn_take.body, fn_where.body, fn_log_softmax.body, fn_log_softmax_0.body,
    fn_log_softmax_1.body, ops, seq_append, part0, part1, part2, part3, part4, part5, part6, part7, part8, part9, part10, part11, part12, part13, part14, part15, part16, part17, part18, part19, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, part0, part1, part2, part3, part4, part5, part6, part7, part8, part9, part10, part11, part12, part13, part14, part15, part16, part17, part18, part19, List.cons_append, List.nil_append, List.Forall, nullary_bufs_sub, unary_bufs_sub, binary_bufs_sub, ternary_bufs_sub, reshape_bufs_sub, nary_bufs_sub, and_self]

variable (W : Valuation τ sig (Elt Ideal))

abbrev Wr (l : List (HloOp τ sig (Elt Ideal))) (R : List (Ref sig .tc)) : Prop :=
  List.Forall₂ (fun op y => op.writes = {Proc.devRef .tc y}) l R

-- by induction along the line: an operation changes only the buffer it writes, and `r` is none of those
theorem carry {l : List (HloOp τ sig (Elt Ideal))} {R : List (Ref sig .tc)} (hl : Wr l R) {r : Ref sig .tc} {V : Valuation τ sig (Elt Ideal)}
    {x} (h : V (Proc.devRef .tc r) = x) (hr : r ∉ R := by decide) : after l V (Proc.devRef .tc r) = x := by
  induction hl generalizing V with
  | nil => exact h
  | cons hw _ ih =>
    refine ih ?_ (fun hm => hr (List.mem_cons_of_mem _ hm))
    rwa [HloOp.result_of_not_mem _ _ (by rw [hw, Finset.mem_singleton]; exact devRef_ne_of_ne fun e => hr (e ▸ List.mem_cons_self))]

theorem w0 : Wr part0 [main_v0, main_v1, main_v2, main_v3, main_v4, main_v5, main_v6, main_v7, main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v8] := by repeat' constructor
theorem w1 : Wr part1 [main_v9, main_v10, main_v11, main_v12, main_v13, main_v14, main_v15, main_cst, main_v16, main_v17, main_v18, main_v19] := by repeat' constructor
theorem w2 : Wr part2 [main_call1_cst, main_call1_v0, main_call1_cst_0, main_call1_v1, main_call1_v2] := by repeat' constructor
theorem w3 : Wr part3 [main_call1_v3, main_call1_v4, main_call1_v5] := by repeat' constructor
theorem w4 : Wr part4 [main_call1_v6, main_call1_cst_1, main_call1_v7] := by repeat' constructor
theorem w5 : Wr part5 [main_call1_v8, main_call1_v9, main_call1_v10, main_v20] := by repeat' constructor
theorem w6 : Wr part6 [main_v21, main_v22, main_cst_0, main_v23, main_cst_1, main_v24, main_v25] := by repeat' constructor
theorem w7 : Wr part7 [main_v26, main_v27, main_v28, main_v29, main_cst_2, main_v30, main_v31, main_v32, main_v33] := by repeat' constructor
theorem w8 : Wr part8 [main_call2_cst, main_call2_v0, main_call2_cst_0, main_call2_v1, main_call2_v2] := by repeat' constructor
theorem w9 : Wr part9 [main_call2_v3, main_call2_v4, main_call2_v5] := by repeat' constructor
theorem w10 : Wr part10 [main_call2_v6, main_call2_cst_1, main_call2_v7] := by repeat' constructor
theorem w11 : Wr part11 [main_call2_v8, main_call2_v9, main_call2_v10, main_v34] := by repeat' constructor
theorem w12 : Wr part12 [main_v35, main_v36, main_cst_3, main_v37, main_cst_4, main_v38, main_v39] := by repeat' constructor
theorem w13 : Wr part13 [main_v40, main_v41, main_v42, main_v43, main_cst_5, main_v44, main_v45, main_v46, main_v47] := by repeat' constructor
theorem w14 : Wr part14 [main_call3_cst, main_call3_v0, main_call3_cst_0, main_call3_v1, main_call3_v2] := by repeat' constructor
theorem w15 : Wr part15 [main_call3_v3, main_call3_v4, main_call3_v5] := by repeat' constructor
theorem w16 : Wr part16 [main_call3_v6, main_call3_cst_1, main_call3_v7] := by repeat' constructor
theorem w17 : Wr part17 [main_call3_v8, main_call3_v9, main_call3_v10, main_v48] := by repeat' constructor
theorem w18 : Wr part18 [main_v49, main_v50, main_cst_6, main_v51, main_cst_7, main_v52, main_v53] := by repeat' constructor
theorem w19 : Wr part19 [main_v54, main_v55, main_v56, main_v57, main_cst_8, main_v58, main_cst_9, main_v59] := by repeat' constructor

theorem s0_v6 {a2} (h0 : W (Proc.devRef .tc main_arg2) = a2) :
    after part0 W (Proc.devRef .tc main_v6) = RefTerm.v6 a2 := by
  simp only [part0]
  after_results_simp
  simp only [h0]
  rfl
theorem s0_v8 {a0 a3} (h0 : W (Proc.devRef .tc main_arg3) = a3) (h1 : W (Proc.devRef .tc main_arg0) = a0) :
    after part0 W (Proc.devRef .tc main_v8) = RefTerm.v8 a0 a3 := by
  simp only [part0]
  after_results_simp
  simp only [h0, h1]
  rfl
theorem s1_v11 {a1 a2} (h0 : W (Proc.devRef .tc main_v6) = RefTerm.v6 a2) (h1 : W (Proc.devRef .tc main_arg1) = a1) :
    after part1 W (Proc.devRef .tc main_v11) = RefTerm.v11 a1 a2 := by
  simp only [part1]
  after_results_simp
  simp only [h0, h1]
  rfl
theorem s1_v19 {a0 a1 a2 a3} (h0 : W (Proc.devRef .tc main_v8) = RefTerm.v8 a0 a3) (h1 : W (Proc.devRef .tc main_v6) = RefTerm.v6 a2) (h2 : W (Proc.devRef .tc main_arg1) = a1) (h3 : W (Proc.devRef .tc main_arg0) = a0) :
    after part1 W (Proc.devRef .tc main_v19) = RefTerm.v19 a0 a1 a2 a3 := by
  simp only [part1]
  after_results
  rw [h0, h1, h2, h3]
  rfl
theorem s2_call1_v2 {x} (h0 : W (Proc.devRef .tc main_v19) = x) :
    after part2 W (Proc.devRef .tc main_call1_v2) = RefTerm.lsm0_v2 x := by
  simp only [part2]
  after_results_simp
  simp only [ofBuf_toBuf, h0]
  rfl
theorem s3_call1_v5 {x} (h0 : W (Proc.devRef .tc main_call1_v2) = RefTerm.lsm0_v2 x) (h1 : W (Proc.devRef .tc main_v19) = x) :
    after part3 W (Proc.devRef .tc main_call1_v5) = RefTerm.lsm0_v5 x := by
  simp only [part3]
  after_results_simp
  simp only [ofBuf_toBuf, h0, h1]
  rfl
theorem s4_call1_v7 {x} (h0 : W (Proc.devRef .tc main_call1_v5) = RefTerm.lsm0_v5 x) :
    after part4 W (Proc.devRef .tc main_call1_v7) = RefTerm.lsm0_v7 x := by
  simp only [part4]
  after_results_simp
  simp only [ofBuf_toBuf, h0]
  rfl
theorem s5_v20 {x} (h0 : W (Proc.devRef .tc main_call1_v7) = RefTerm.lsm0_v7 x) (h1 : W (Proc.devRef .tc main_call1_v5) = RefTerm.lsm0_v5 x) :
    after part5 W (Proc.devRef .tc main_v20) = RefTerm.lsm0 x := by
  simp only [part5]
  after_results_simp
  simp only [ofBuf_toBuf, h0, h1]
  rfl
theorem s6_v25 {a0 a1 a2 a3} (h0 : W (Proc.devRef .tc main_v20) = RefTerm.v20 a0 a1 a2 a3) :
    after part6 W (Proc.devRef .tc main_v25) = RefTerm.v25 a0 a1 a2 a3 := by
  simp only [part6]
  after_results_simp
  simp only [h0]
  rfl
theorem s7_v33 {a0 a1 a2 a3} (h0 : W (Proc.devRef .tc main_v8) = RefTerm.v8 a0 a3) (h1 : W (Proc.devRef .tc main_v11) = RefTerm.v11 a1 a2) (h2 : W (Proc.devRef .tc main_arg0) = a0) :
    after part7 W (Proc.devRef .tc main_v33) = RefTerm.v33 a0 a1 a2 a3 := by
  simp only [part7]
  after_results
  rw [h0, h1, h2]
  rfl
theorem s8_call2_v2 {x} (h0 : W (Proc.devRef .tc main_v33) = x) :
    after part8 W (Proc.devRef .tc main_call2_v2) = RefTerm.lsm1_v2 x := by
  simp only [part8]
  after_results_simp
  simp only [ofBuf_toBuf, h0]
  rfl
theorem s9_call2_v5 {x} (h0 : W (Proc.devRef .tc main_call2_v2) = RefTerm.lsm1_v2 x) (h1 : W (Proc.devRef .tc main_v33) = x) :
    after part9 W (Proc.devRef .tc main_call2_v5) = RefTerm.lsm1_v5 x := by
  simp only [part9]
  after_results_simp
  simp only [ofBuf_toBuf, h0, h1]
  rfl
theorem s10_call2_v7 {x} (h0 : W (Proc.devRef .tc main_call2_v5) = RefTerm.lsm1_v5 x) :
    after part10 W (Proc.devRef .tc main_call2_v7) = RefTerm.lsm1_v7 x := by
  simp only [part10]
  after_results_simp
  simp only [ofBuf_toBuf, h0]
  rfl
theorem s11_v34 {x} (h0 : W (Proc.devRef .tc main_call2_v7) = RefTerm.lsm1_v7 x) (h1 : W (Proc.devRef .tc main_call2_v5) = RefTerm.lsm1_v5 x) :
    after part11 W (Proc.devRef .tc main_v34) = RefTerm.lsm1 x := by
  simp only [part11]
  after_results_simp
  simp only [ofBuf_toBuf, h0, h1]
  rfl
theorem s12_v39 {a0 a1 a2 a3} (h0 : W (Proc.devRef .tc main_v34) = RefTerm.v34 a0 a1 a2 a3) :
    after part12 W (Proc.devRef .tc main_v39) = RefTerm.v39 a0 a1 a2 a3 := by
  simp only [part12]
  after_results_simp
  simp only [h0]
  rfl
theorem s13_v47 {a0 a1 a2 a3} (h0 : W (Proc.devRef .tc main_v8) = RefTerm.v8 a0 a3) (h1 : W (Proc.devRef .tc main_v11) = RefTerm.v11 a1 a2) (h2 : W (Proc.devRef .tc main_arg0) = a0) :
    after part13 W (Proc.devRef .tc main_v47) = RefTerm.v47 a0 a1 a2 a3 := by
  simp only [part13]
  after_results
  rw [h0, h1, h2]
  rfl
theorem s14_call3_v2 {x} (h0 : W (Proc.devRef .tc main_v47) = x) :
    after part14 W (Proc.devRef .tc main_call3_v2) = RefTerm.lsm2_v2 x := by
  simp only [part14]
  after_results_simp
  simp only [ofBuf_toBuf, h0]
  rfl
theorem s15_call3_v5 {x} (h0 : W (Proc.devRef .tc main_call3_v2) = RefTerm.lsm2_v2 x) (h1 : W (Proc.devRef .tc main_v47) = x) :
    after part15 W (Proc.devRef .tc main_call3_v5) = RefTerm.lsm2_v5 x := by
  simp only [part15]
  after_results_simp
  simp only [ofBuf_toBuf, h0, h1]
  rfl
theorem s16_call3_v7 {x} (h0 : W (Proc.devRef .tc main_call3_v5) = RefTerm.lsm2_v5 x) :
    after part16 W (Proc.devRef .tc main_call3_v7) = RefTerm.lsm2_v7 x := by
  simp only [part16]
  after_results_simp
  simp only [ofBuf_toBuf, h0]
  rfl
theorem s17_v48 {x} (h0 : W (Proc.devRef .tc main_call3_v7) = RefTerm.lsm2_v7 x) (h1 : W (Proc.devRef .tc main_call3_v5) = RefTerm.lsm2_v5 x) :
    after part17 W (Proc.devRef .tc main_v48) = RefTerm.lsm2 x := by
  simp only [part17]
  after_results_simp
  simp only [ofBuf_toBuf, h0, h1]
  rfl
theorem s18_v53 {a0 a1 a2 a3} (h0 : W (Proc.devRef .tc main_v48) = RefTerm.v48 a0 a1 a2 a3) :
    after part18 W (Proc.devRef .tc main_v53) = RefTerm.v53 a0 a1 a2 a3 := by
  simp only [part18]
  after_results_simp
  simp only [h0]
  rfl
theorem s19_v59 {a0 a1 a2 a3} (h0 : W (Proc.devRef .tc main_v53) = RefTerm.v53 a0 a1 a2 a3) (h1 : W (Proc.devRef .tc main_v39) = RefTerm.v39 a0 a1 a2 a3) (h2 : W (Proc.devRef .tc main_v25) = RefTerm.v25 a0 a1 a2 a3) :
    after part19 W (Proc.devRef .tc main_v59) = RefTerm.result a0 a1 a2 a3 := by
  simp only [part19]
  after_results
  dsimp only [Matrix.cons_val]
  repeat (first | rw [unary_result] | (rw [unary_result_ne]; rotate_left; decide))
  rw [h0, h1, h2]
  rfl

-- window by window: what a window reads was computed by an earlier one and written by none between
theorem after_ops : after ops W (Proc.devRef .tc main_v59) = RefTerm.result (W (Proc.devRef .tc main_arg0)) (W (Proc.devRef .tc main_arg1)) (W (Proc.devRef .tc main_arg2)) (W (Proc.devRef .tc main_arg3)) := by
  simp only [ops, after_app]
  have v6 := s0_v6 W rfl
  have v8 := s0_v8 W rfl rfl
  have arg0 := carry w0 (r := main_arg0) (V := W) rfl
  have arg1 := carry w0 (r := main_arg1) (V := W) rfl
  have v11 := s1_v11 _ v6 arg1
  have v19 := s1_v19 _ v8 v6 arg1 arg0
  have arg0 := carry w1 arg0
  have v8 := carry w1 v8
  have call1_v2 := s2_call1_v2 _ v19
  have arg0 := carry w2 arg0
  have v8 := carry w2 v8
  have v11 := carry w2 v11
  have v19 := carry w2 v19
  have call1_v5 := s3_call1_v5 _ call1_v2 v19
  have arg0 := carry w3 arg0
  have v8 := carry w3 v8
  have v11 := carry w3 v11
  have call1_v7 := s4_call1_v7 _ call1_v5
  have arg0 := carry w4 arg0
  have v8 := carry w4 v8
  have v11 := carry w4 v11
  have call1_v5 := carry w4 call1_v5
  have v20 := s5_v20 _ call1_v7 call1_v5
  have arg0 := carry w5 arg0
  have v8 := carry w5 v8
  have v11 := carry w5 v11
  have v25 := s6_v25 _ v20
  have arg0 := carry w6 arg0
  have v8 := carry w6 v8
  have v11 := carry w6 v11
  have v33 := s7_v33 _ v8 v11 arg0
  have arg0 := carry w7 arg0
  have v8 := carry w7 v8
  have v11 := carry w7 v11
  have v25 := carry w7 v25
  have call2_v2 := s8_call2_v2 _ v33
  have arg0 := carry w8 arg0
  have v8 := carry w8 v8
  have v11 := carry w8 v11
  have v25 := carry w8 v25
  have v33 := carry w8 v33
  have call2_v5 := s9_call2_v5 _ call2_v2 v33
  have arg0 := carry w9 arg0
  have v8 := carry w9 v8
  have v11 := carry w9 v11
  have v25 := carry w9 v25
  have call2_v7 := s10_call2_v7 _ call2_v5
  have arg0 := carry w10 arg0
  have v8 := carry w10 v8
  have v11 := carry w10 v11
  have v25 := carry w10 v25
  have call2_v5 := carry w10 call2_v5
  have v34 := s11_v34 _ call2_v7 call2_v5
  have arg0 := carry w11 arg0
  have v8 := carry w11 v8
  have v11 := carry w11 v11
  have v25 := carry w11 v25
  have v39 := s12_v39 _ v34
  have arg0 := carry w12 arg0
  have v8 := carry w12 v8
  have v11 := carry w12 v11
  have v25 := carry w12 v25
  have v47 := s13_v47 _ v8 v11 arg0
  have v25 := carry w13 v25
  have v39 := carry w13 v39
  have call3_v2 := s14_call3_v2 _ v47
  have v25 := carry w14 v25
  have v39 := carry w14 v39
  have v47 := carry w14 v47
  have call3_v5 := s15_call3_v5 _ call3_v2 v47
  have v25 := carry w15 v25
  have v39 := carry w15 v39
  have call3_v7 := s16_call3_v7 _ call3_v5
  have v25 := carry w16 v25
  have v39 := carry w16 v39
  have call3_v5 := carry w16 call3_v5
  have v48 := s17_v48 _ call3_v7 call3_v5
  have v25 := carry w17 v25
  have v39 := carry w17 v39
  have v53 := s18_v53 _ v48
  have v25 := carry w18 v25
  have v39 := carry w18 v39
  exact s19_v59 _ v53 v39 v25

theorem ops_keep (r : Ref sig .tc) (h : r = main_arg0 ∨ r = main_arg1 ∨ r = main_arg2 ∨ r = main_arg3) :
    after ops W (Proc.devRef .tc r) = W (Proc.devRef .tc r) := by
  simp only [ops, after_app]
  rcases h with rfl | rfl | rfl | rfl <;> exact carry w19 (carry w18 (carry w17 (carry w16 (carry w15 (carry w14 (carry w13 (carry w12 (carry w11 (carry w10 (carry w9 (carry w8 (carry w7 (carry w6 (carry w5 (carry w4 (carry w3 (carry w2 (carry w1 (carry w0 rfl (by decide)) (by decide)) (by decide)) (by decide)) (by decide)) (by decide)) (by decide)) (by decide)) (by decide)) (by decide)) (by decide)) (by decide)) (by decide)) (by decide)) (by decide)) (by decide)) (by decide)) (by decide)) (by decide)) (by decide)

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v59) = RefTerm.result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v59).trans (after_ops _), (h c main_arg0).trans (ops_keep _ _ (.inl rfl)),
      (h c main_arg1).trans (ops_keep _ _ (.inr (.inl rfl))), (h c main_arg2).trans (ops_keep _ _ (.inr (.inr (.inl rfl)))),
      (h c main_arg3).trans (ops_keep _ _ (.inr (.inr (.inr rfl))))⟩)
    (run_seq scopedRefs_eq scopedSems_eq defs main (fun _ => ops) main_eq (fun _ => ops_sub) m ρ)

end Cert.ReferenceIdeal.RefRun

end
-- ==== Proof.RefLogits.lean ====
import proofs.«204919_g30640296690406_cont_9to1_308_17_alg».proof.Proof.RefTerm
import proofs.«204919_g30640296690406_cont_9to1_308_17_alg».proof.Proof.Spec
import Idealize.ShloMosaic.PureOps.Ideal.Laws
import Idealize.ShloMosaic.Lib.ValueLayout
import Idealize.ShloMosaic.Lib.Pipeline.Value
import Idealize.ShloMosaic.Lib.IdealHost
import Idealize.ShloMosaic.Lib.StableHlo.Predicate

noncomputable section

namespace Cert.ReferenceIdeal.RefVal

open Cert.ReferenceIdeal Cert.ReferenceIdeal.RefTerm
open Idealize.ShloMosaic Idealize.ShloMosaic.ValueIdx
open Cert.Spec (sx sb sn lenOf)
open Cert.ReferenceIdeal.Facts₀

variable (a0 : (⟨S8x4096x128, .f32⟩ : BufTy).Contents (Elt Ideal)) (a1 : (⟨S8x4096x128x3, .f32⟩ : BufTy).Contents (Elt Ideal))
  (a2 : (⟨S8, .i32⟩ : BufTy).Contents (Elt Ideal)) (a3 : (⟨S8x16, .i32⟩ : BufTy).Contents (Elt Ideal))

private theorem toNat_of_toInt_bounds (x : BitVec 32) (N : ℕ) (hN : N < 2 ^ 31) (h0 : 0 ≤ x.toInt) (h1 : x.toInt ≤ N) :
    x.toNat ≤ N ∧ x.toInt = x.toNat := by
  have e := BitVec.toInt_eq_toNat_cond x
  have := x.isLt
  split at e <;> omega

private theorem slt_zero_of_nonneg (x : BitVec 32) (h : 0 ≤ x.toInt) : IntOp.cmpi .slt x 0#32 = 0#1 := by
  unfold IntOp.cmpi
  have : ¬ x.toInt < 0 := by omega
  simp [BitVec.slt, this]

private theorem sge_zero_of_nonneg (x : BitVec 32) (h : 0 ≤ x.toInt) : IntOp.cmpi .sge x 0#32 = 1#1 := by
  unfold IntOp.cmpi
  simp [BitVec.sle, h]

private theorem sle_of_le (x : BitVec 32) (h : x.toInt ≤ 32767) : IntOp.cmpi .sle x 32767#32 = 1#1 := by
  unfold IntOp.cmpi
  simp [BitVec.sle, h]

private theorem fold_fin1 {β : Type} (op : β → β → β) [Std.Commutative op] [Std.Associative op] (b : β) (f : Fin 1 → β) :
    (Finset.univ : Finset (Fin 1)).fold op b f = op (f 0) b := by
  rw [Finset.univ_unique, Finset.fold_singleton]; rfl

theorem zero_eq (i : S_.Idx) : zero i = (0 : EReal) := Ideal.ofBits_zero_f32

theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

section Ops
variable {α : Type} {N K : ℕ}

theorem lift3 (R : (⟨3, ![8, N, K]⟩ : Shape).Reduces [2] ⟨2, ![8, N]⟩) (b : Fin 8) (t : Fin N) (k : Fin K) :
    R.lift (ix2 b t) k = ix3 b t k := by
  funext c; refine Fin.ext ?_
  match c with
  | ⟨0, _⟩ => rfl
  | ⟨1, _⟩ => rfl
  | ⟨2, _⟩ => rfl

theorem sum_last (hr : (⟨3, ![8, N, K]⟩ : Shape).ReducesTo [2] ⟨2, ![8, N]⟩) (x : FVec Ideal ⟨3, ![8, N, K]⟩ .f32)
    (b : Fin 8) (t : Fin N) :
    Host.reduceAdd (F := Ideal) (φ := .f32) x zero hr Facts₀.h_S_ (ix2 b t) = ∑ k : Fin K, x (ix3 b t k) := by
  have R : (⟨3, ![8, N, K]⟩ : Shape).Reduces [2] ⟨2, ![8, N]⟩ := ⟨hr.1, Nat.zero_lt_two, hr.2⟩
  rw [hostReduceAdd_apply, Ideal.hostReduceAdd_single hr R, zero_eq, zero_add]
  exact Finset.sum_congr rfl fun k _ => congrArg x (lift3 R b t k)

theorem ite_one {n : ℕ} (t : Fin n) : t.val = if n = 1 then 0 else t.val := by
  split
  · have := t.isLt; omega
  · rfl

theorem bc_row (hb : (⟨2, ![8, N]⟩ : Shape).BroadcastsInDim ⟨3, ![8, N, 1]⟩ ![0, 1]) (p : (⟨2, ![8, N]⟩ : Shape).Idx → α)
    (b : Fin 8) (t : Fin N) : broadcastInDim ⟨3, ![8, N, 1]⟩ ![0, 1] hb p (ix3 b t (0 : Fin 1)) = p (ix2 b t) :=
  broadcastInDim_apply _ _ _ (ix3 b t (0 : Fin 1)) (ix2 b t) fun a => by
    match a with
    | ⟨0, _⟩ => rfl
    | ⟨1, _⟩ => exact ite_one t

theorem bc_col (hb : (⟨3, ![8, N, 1]⟩ : Shape).BroadcastsInDim ⟨3, ![8, N, K]⟩ ![0, 1, 2])
    (p : (⟨3, ![8, N, 1]⟩ : Shape).Idx → α) (b : Fin 8) (t : Fin N) (j : Fin K) :
    broadcastInDim ⟨3, ![8, N, K]⟩ ![0, 1, 2] hb p (ix3 b t j) = p (ix3 b t (0 : Fin 1)) :=
  broadcastInDim_apply _ _ _ (ix3 b t j) (ix3 b t (0 : Fin 1)) fun a => by
    match a with
    | ⟨0, _⟩ => rfl
    | ⟨1, _⟩ => exact ite_one t
    | ⟨2, _⟩ => rfl

theorem ctx_apply (s : Fin 3) (hs : S8x4096x128x3.Slices ![0, 0, 0, s.val] ⟨4, ![8, N, 128, 1]⟩)
    (hc : (⟨4, ![8, N, 128, 1]⟩ : Shape).ShapeCasts ⟨3, ![8, N, 128]⟩) (x : S8x4096x128x3.Idx → α) (hN : N ≤ 4096)
    (b : Fin 8) (t : Fin N) (e : Fin 128) :
    shapeCast ⟨3, ![8, N, 128]⟩ (extractStridedSlice ⟨4, ![8, N, 128, 1]⟩ ![0, 0, 0, s.val] x hs) hc (ix3 b t e)
      = x (ix4 b (⟨t.val, by omega⟩ : Fin 4096) e s) := by
  refine (shapeCast_apply _ _ (ix3 b t e) (ix4 b t e (0 : Fin 1)) ?_).trans
    (extractStridedSlice_apply _ _ _ (ix4 b t e (0 : Fin 1)) _ fun a => ?_)
  · rw [Shape.rowMajor_val_four, Shape.rowMajor_val_three]
    show ((b.val * N + t.val) * 128 + e.val) * 1 + 0 = (b.val * N + t.val) * 128 + e.val
    rw [Nat.mul_one, Nat.add_zero]
  · match a with
    | ⟨0, _⟩ => exact (Nat.zero_add _).symm
    | ⟨1, _⟩ => exact (Nat.zero_add _).symm
    | ⟨2, _⟩ => exact (Nat.zero_add _).symm
    | ⟨3, _⟩ => rfl

theorem ahead_apply (k : ℕ) (hs : S8x4096x128.Slices ![0, k, 0] ⟨3, ![8, N, 128]⟩) (x : S8x4096x128.Idx → α) (hN : N + k ≤ 4096)
    (b : Fin 8) (t : Fin N) (e : Fin 128) :
    extractStridedSlice ⟨3, ![8, N, 128]⟩ ![0, k, 0] x hs (ix3 b t e) = x (ix3 b (⟨t.val + k, by omega⟩ : Fin 4096) e) :=
  extractStridedSlice_apply _ _ _ (ix3 b t e) _ fun a => by
    match a with
    | ⟨0, _⟩ => exact (Nat.zero_add _).symm
    | ⟨1, _⟩ => exact Nat.add_comm _ _
    | ⟨2, _⟩ => exact (Nat.zero_add _).symm

theorem dot_rows (w : DotDims.WF ⟨3, ![8, N, 128]⟩ S8x16x128 ⟨3, ![8, N, 16]⟩ [2] [2] [1] [1] [0] [0])
    (A : FVec Ideal ⟨3, ![8, N, 128]⟩ .f32) (C : FVec Ideal S8x16x128 .f32) (b : Fin 8) (t : Fin N) (n : Fin 16) :
    Host.dotGeneral (F := Ideal) (φ₁ := .f32) (φ₂ := .f32) (⟨[2], [2], [1], [1], [0], [0], w⟩ : DotDims _ _ _) none A C (ix3 b t n)
      = ∑ e : Fin 128, A (ix3 b t e) * C (ix3 b n e) := by
  show FloatOps.dotGeneral _ none _ A C (ix3 b t n) = _
  rw [Ideal.dotGeneral_apply,
    ← Equiv.sum_comp (contrEquiv1 (⟨[2], [2], [1], [1], [0], [0], w⟩ : DotDims _ _ _) 128 rfl rfl).symm]
  refine Finset.sum_congr rfl fun e _ => ?_
  have c3 := contrEquiv1_symm_val
    (⟨[2], [2], [1], [1], [0], [0], w⟩ : DotDims ⟨3, ![8, N, 128]⟩ S8x16x128 ⟨3, ![8, N, 16]⟩) 128 rfl rfl e
  congr 2 <;> (funext ax; apply Fin.ext)
  · match ax with
    | ⟨0, _⟩ => simp [DotDims.lhsIdx]; rfl
    | ⟨1, _⟩ => simp [DotDims.lhsIdx]; rfl
    | ⟨2, _⟩ => simp [DotDims.lhsIdx]; exact c3
  · match ax with
    | ⟨0, _⟩ => simp [DotDims.rhsIdx]; rfl
    | ⟨1, _⟩ => simp [DotDims.rhsIdx]; rfl
    | ⟨2, _⟩ => simp [DotDims.rhsIdx]; exact c3

theorem cat_zero (hc : Shape.Concatenates [⟨3, ![8, N, 1]⟩, ⟨3, ![8, N, 16]⟩] ⟨3, ![8, N, 17]⟩ 2)
    (p : (⟨3, ![8, N, 1]⟩ : Shape).Idx → α) (q : (⟨3, ![8, N, 16]⟩ : Shape).Idx → α) (b : Fin 8) (t : Fin N) :
    concatenate ⟨3, ![8, N, 17]⟩ 2 [⟨⟨3, ![8, N, 1]⟩, p⟩, ⟨⟨3, ![8, N, 16]⟩, q⟩] hc (ix3 b t (0 : Fin 17)) = p (ix3 b t (0 : Fin 1)) :=
  concatenate_pair_apply_left (t := ⟨3, ![8, N, 17]⟩) (s₁ := ⟨3, ![8, N, 1]⟩) (s₂ := ⟨3, ![8, N, 16]⟩) _ _ _ _ _ rfl _ fun c => by
    match c with
    | ⟨0, _⟩ => rfl
    | ⟨1, _⟩ => rfl
    | ⟨2, _⟩ => rfl

theorem cat_succ (hc : Shape.Concatenates [⟨3, ![8, N, 1]⟩, ⟨3, ![8, N, 16]⟩] ⟨3, ![8, N, 17]⟩ 2)
    (p : (⟨3, ![8, N, 1]⟩ : Shape).Idx → α) (q : (⟨3, ![8, N, 16]⟩ : Shape).Idx → α) (b : Fin 8) (t : Fin N) (n : Fin 16) :
    concatenate ⟨3, ![8, N, 17]⟩ 2 [⟨⟨3, ![8, N, 1]⟩, p⟩, ⟨⟨3, ![8, N, 16]⟩, q⟩] hc (ix3 b t (n.succ : Fin 17)) = q (ix3 b t n) :=
  concatenate_pair_apply_right (t := ⟨3, ![8, N, 17]⟩) (s₁ := ⟨3, ![8, N, 1]⟩) (s₂ := ⟨3, ![8, N, 16]⟩) _ _ _ _ _ rfl rfl _
    (fun c hc => by
      match c with
      | ⟨0, _⟩ => rfl
      | ⟨1, _⟩ => rfl
      | ⟨2, _⟩ => exact absurd rfl hc) rfl

end Ops

section G
variable {α : Type}
private abbrev GD := gather_S32768x128_S8x16x1_S8x16x128_2_0_n_n_0_2_1128

private theorem gather_rows_apply (x : S32768x128.Idx → α) (idx : IVec S8x16x1 32) (b : Fin 8) (n : Fin 16) (e : Fin 128) :
    Host.gather GD x idx (ix3 b n e)
      = x (ix2 (⟨min (idx (ix3 b n (0 : Fin 1))).toInt.toNat (32768 - 1), by omega⟩ : Fin 32768) e) := by
  unfold Host.gather
  congr 1
  funext a
  refine Fin.ext ?_
  show GD.start (ix3 b n e) idx a + GD.batchCoord (ix3 b n e) a + GD.offCoord (ix3 b n e) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin S32768x128.rank) ∈ GD.startIndexMap from List.mem_singleton.mpr rfl),
      show GD.siIdx (ix3 b n e) ⟨List.idxOf (⟨0, by decide⟩ : Fin S32768x128.rank) GD.startIndexMap,
        List.idxOf_lt_length_iff.2 (List.mem_singleton.mpr rfl)⟩ = ix3 b n (0 : Fin 1) from
        funext fun c => Fin.ext (by match c with | ⟨0, _⟩ | ⟨1, _⟩ | ⟨2, _⟩ => rfl)]
    rfl
  | ⟨1, _⟩ =>
    unfold GatherDims.start GatherDims.offCoord
    rw [dif_neg (show ¬ (⟨1, by decide⟩ : Fin S32768x128.rank) ∈ GD.startIndexMap from by decide),
      dif_pos (show (⟨1, by decide⟩ : Fin S32768x128.rank) ∈ GD.sKept from by decide)]
    exact Nat.zero_add _
end G

section Take
variable (hid : ∀ i, 0 ≤ (a3 i).toInt ∧ (a3 i).toInt ≤ 32767)
include hid

private theorem take_v4_apply (b : Fin 8) (n : Fin 16) : take_v4 a3 (ix2 b n) = a3 (ix2 b n) := by
  show Scalar.select (IntOp.cmpi .slt (a3 (ix2 b n)) (take_v0 (ix2 b n))) (take_v3 a3 (ix2 b n)) (a3 (ix2 b n)) = _
  have e : take_v0 (ix2 b n) = 0#32 := rfl
  rw [e, slt_zero_of_nonneg _ (hid _).1, select_zero]

private theorem take_v5_apply (b : Fin 8) (n : Fin 16) : take_v5 a3 (ix3 b n (0 : Fin 1)) = a3 (ix2 b n) :=
  (bc_row _ _ b n).trans (take_v4_apply a3 hid b n)

private theorem take_v11_apply (b : Fin 8) (n : Fin 16) : take_v11 a3 (ix3 b n (0 : Fin 1)) = 1#1 := by
  show IntOp.andi (IntOp.cmpi .sge (take_v5 a3 (ix3 b n (0 : Fin 1))) (take_v6 (ix3 b n (0 : Fin 1))))
    (IntOp.cmpi .sle (take_v5 a3 (ix3 b n (0 : Fin 1))) (take_v9 (ix3 b n (0 : Fin 1)))) = _
  have e6 : take_v6 (ix3 b n (0 : Fin 1)) = 0#32 := rfl
  have e9 : take_v9 (ix3 b n (0 : Fin 1)) = 32767#32 := rfl
  rw [take_v5_apply a3 hid, e6, e9, sge_zero_of_nonneg _ (hid _).1, sle_of_le _ (hid _).2]
  decide

private theorem take_v12_apply (b : Fin 8) (n : Fin 16) : take_v12 a3 (ix2 b n) = 1#1 := by
  have R : S8x16x1.Reduces [2] S8x16 := by decide
  unfold take_v12
  rw [Host.reduce_eq_fold_single IntOp.andi _ _ _ R _ (ix2 b n)]
  refine (fold_fin1 IntOp.andi _ _).trans ?_
  show IntOp.andi (take_v11 a3 (R.lift (ix2 b n) (0 : Fin 1))) (take_c_3 _) = _
  rw [lift3 R b n 0, take_v11_apply a3 hid]
  decide

end Take

private theorem v7_apply (r : Fin 32768) (e : Fin 128) :
    v7 a0 (ix2 r e)
      = a0 (ix3 (⟨r.val / 4096, by have := r.isLt; omega⟩ : Fin 8) (⟨r.val % 4096, Nat.mod_lt _ (by norm_num)⟩ : Fin 4096) e) := by
  unfold v7
  refine shapeCast_apply _ _ _ _ ?_
  rw [Shape.rowMajor_val_three, Shape.rowMajor_val_two]
  show (r.val / 4096 * 4096 + r.val % 4096) * 128 + e.val = r.val * 128 + e.val
  omega

private theorem v8_apply (hid : ∀ i, 0 ≤ (a3 i).toInt ∧ (a3 i).toInt ≤ 32767) (b : Fin 8) (n : Fin 16) (e : Fin 128) :
    v8 a0 a3 (ix3 b n e) = a0 (ix3 (Cert.Spec.pickOf a3 b n).1 (Cert.Spec.pickOf a3 b n).2 e) := by
  show Scalar.select (take_v14 a3 (ix3 b n e)) (take_v13 a0 a3 (ix3 b n e)) (take_v15 (ix3 b n e)) = _
  have e14 : take_v14 a3 (ix3 b n e) = 1#1 := by
    unfold take_v14
    refine (broadcastInDim_apply _ _ _ (ix3 b n e) (ix2 b n) (fun a => by match a with | ⟨0, _⟩ => rfl | ⟨1, _⟩ => rfl)).trans ?_
    exact take_v12_apply a3 hid b n
  rw [e14, select_one]
  unfold take_v13
  rw [gather_rows_apply, v7_apply]
  have h5 := take_v5_apply a3 hid b n
  obtain ⟨hle, hti⟩ := toNat_of_toInt_bounds (a3 (ix2 b n)) 32767 (by norm_num) (hid _).1 (hid _).2
  have hm : min (a3 (ix2 b n)).toInt.toNat (32768 - 1) = (a3 (ix2 b n)).toNat := by
    rw [hti, Int.toNat_natCast]; omega
  refine congrArg a0 ?_
  funext c; refine Fin.ext ?_
  match c with
  | ⟨0, _⟩ =>
    show min (take_v5 a3 (ix3 b n (0 : Fin 1))).toInt.toNat (32768 - 1) / 4096 = (a3 (ix2 b n)).toNat / 4096 % 8
    rw [h5, hm]; omega
  | ⟨1, _⟩ =>
    show min (take_v5 a3 (ix3 b n (0 : Fin 1))).toInt.toNat (32768 - 1) % 4096 = (a3 (ix2 b n)).toNat % 4096
    rw [h5, hm]
  | ⟨2, _⟩ => rfl

private theorem v3_apply (b : Fin 8) (t : Fin 4096) : v3 (ix2 b t) = BitVec.ofNat 32 t.val := rfl

private theorem v4_apply (b : Fin 8) (t : Fin 4096) : v4 a2 (ix2 b t) = a2 (ix1 b) := by
  unfold v4 v2
  refine (broadcastInDim_apply _ _ _ (ix2 b t) (ix2 b (0 : Fin 1)) (fun a => by match a with | ⟨0, _⟩ => rfl | ⟨1, _⟩ => rfl)).trans ?_
  exact broadcastInDim_apply _ _ _ (ix2 b (0 : Fin 1)) (ix1 b) (fun a => by match a with | ⟨0, _⟩ => rfl)

private theorem v6_apply (b : Fin 8) (t : Fin 4096) :
    v6 a2 (ix2 b t) = (((IntOp.cmpi .slt (BitVec.ofNat 32 t.val) (a2 (ix1 b))).toNat : ℝ) : EReal) := by
  show (((IntOp.cmpi .slt (v3 (ix2 b t)) (v4 a2 (ix2 b t))).toNat : ℝ) : EReal) = _
  rw [v3_apply, v4_apply]

private theorem v6_real (hlen : ∀ i, 0 ≤ (a2 i).toInt ∧ (a2 i).toInt ≤ 4095) (b : Fin 8) (t : Fin 4096) :
    v6 a2 (ix2 b t) = ((Cert.Spec.msk (lenOf a2 b) t : ℝ) : EReal) := by
  rw [v6_apply]
  obtain ⟨hle, hti⟩ := toNat_of_toInt_bounds (a2 (ix1 b)) 4095 (by norm_num) (hlen _).1 (hlen _).2
  unfold Cert.Spec.msk Cert.Spec.lenOf
  have ht : (BitVec.ofNat 32 t.val).toNat = t.val := by
    rw [BitVec.toNat_ofNat]; exact Nat.mod_eq_of_lt (by have := t.isLt; omega)
  have key := StableHlo.Predicate.slt_iff_toNat (a := BitVec.ofNat 32 t.val) (b := a2 (ix1 b)) (by have := t.isLt; omega) (by omega)
  rw [ht] at key
  by_cases hlt : t.val < (a2 (ix1 b)).toNat
  · rw [key.mpr hlt, if_pos hlt]; simp
  · rw [eq_zero_of_ne_one (fun h => hlt (key.mp h)), if_neg hlt]; simp

private theorem v11_apply (b : Fin 8) (t : Fin 4096) (e : Fin 128) (s : Fin 3) :
    v11 a1 a2 (ix4 b t e s) = a1 (ix4 b t e s) * v6 a2 (ix2 b t) := by
  show a1 (ix4 b t e s) * v10 a2 (ix4 b t e s) = _
  congr 1
  unfold v10 v9
  refine (broadcastInDim_apply _ _ _ (ix4 b t e s) (ix4 b t (0 : Fin 1) (0 : Fin 1))
    (fun a => by match a with | ⟨0, _⟩ => rfl | ⟨1, _⟩ => rfl | ⟨2, _⟩ => rfl | ⟨3, _⟩ => rfl)).trans ?_
  exact broadcastInDim_apply _ _ _ (ix4 b t (0 : Fin 1) (0 : Fin 1)) (ix2 b t)
    (fun a => by match a with | ⟨0, _⟩ => rfl | ⟨1, _⟩ => rfl)

private theorem a0_real (h : Cert.Spec.Dom a0 a1 a2 a3) (i : S8x4096x128.Idx) : a0 i = (((a0 i).toReal : ℝ) : EReal) := by
  obtain ⟨x, hx⟩ := h.fin0 i
  rw [hx, EReal.toReal_coe]

private theorem a1_real (h : Cert.Spec.Dom a0 a1 a2 a3) (i : S8x4096x128x3.Idx) : a1 i = (((a1 i).toReal : ℝ) : EReal) := by
  obtain ⟨x, hx⟩ := h.fin1 i
  rw [hx, EReal.toReal_coe]

private theorem v11_real (h : Cert.Spec.Dom a0 a1 a2 a3) (b : Fin 8) (t : Fin 4096) (e : Fin 128) (s : Fin 3) :
    v11 a1 a2 (ix4 b t e s) = ((Cert.Spec.ce (sx a1 b) (lenOf a2 b) s t e : ℝ) : EReal) := by
  rw [v11_apply, v6_real a2 h.len, a1_real a0 a1 a2 a3 h (ix4 b t e s), ← EReal.coe_mul]
  rfl

private theorem nxt_eq (s : Fin 3) (t : Fin 4096) (ht : t.val + s.val + 1 < 4096) :
    Cert.Spec.nxt s t = (⟨t.val + s.val + 1, ht⟩ : Fin 4096) :=
  Fin.ext (Nat.mod_eq_of_lt ht)

section Step
variable {N : ℕ}

-- One proof for the three steps, which differ only in the row count `N` and the step `s`.
theorem logits_apply (s : Fin 3) (hN : N + s.val + 1 = 4096)
    (f1 : S8x4096x128x3.Slices ![0, 0, 0, s.val] ⟨4, ![8, N, 128, 1]⟩)
    (f2 : (⟨4, ![8, N, 128, 1]⟩ : Shape).ShapeCasts ⟨3, ![8, N, 128]⟩)
    (f3 : S8x4096x128.Slices ![0, s.val + 1, 0] ⟨3, ![8, N, 128]⟩)
    (f4 : (⟨3, ![8, N, 128]⟩ : Shape).ReducesTo [2] ⟨2, ![8, N]⟩)
    (f5 : (⟨2, ![8, N]⟩ : Shape).BroadcastsInDim ⟨3, ![8, N, 1]⟩ ![0, 1])
    (w : DotDims.WF ⟨3, ![8, N, 128]⟩ S8x16x128 ⟨3, ![8, N, 16]⟩ [2] [2] [1] [1] [0] [0])
    (f6 : Shape.Concatenates [⟨3, ![8, N, 1]⟩, ⟨3, ![8, N, 16]⟩] ⟨3, ![8, N, 17]⟩ 2)
    (h : Cert.Spec.Dom a0 a1 a2 a3) (b : Fin 8) (t : Fin N) (j : Fin 17) :
    logits a0 a1 a2 a3 s f1 f2 f3 f4 f5 w f6 (ix3 b t j)
      = ((Cert.Spec.logit (sx a1 b) (sb a0 b) (sn a0 a3 b) (lenOf a2 b) s ⟨t.val, by omega⟩ j : ℝ) : EReal) := by
  unfold logits
  have hX : ∀ e, ctx a1 a2 s f1 f2 (ix3 b t e)
      = ((Cert.Spec.ce (sx a1 b) (lenOf a2 b) s ⟨t.val, by omega⟩ e : ℝ) : EReal) :=
    fun e => (ctx_apply s f1 f2 _ (by omega) b t e).trans (v11_real a0 a1 a2 a3 h b _ e s)
  induction j using Fin.cases with
  | zero =>
    rw [cat_zero, bc_row, sum_last]
    show _ = ((Cert.Spec.pos (sx a1 b) (sb a0 b) (lenOf a2 b) s ⟨t.val, by omega⟩ : ℝ) : EReal)
    unfold Cert.Spec.pos
    rw [← coe_sum]
    refine Finset.sum_congr rfl fun e _ => ?_
    rw [mulf_apply, hX, ahead_apply _ f3 a0 (by omega), a0_real a0 a1 a2 a3 h (ix3 b _ e), ← EReal.coe_mul,
      nxt_eq s ⟨t.val, by omega⟩ (by show t.val + s.val + 1 < 4096; omega)]
    rfl
  | succ n =>
    rw [cat_succ, dot_rows]
    unfold Cert.Spec.logit
    rw [Fin.cases_succ]
    unfold Cert.Spec.npred
    rw [← coe_sum]
    refine Finset.sum_congr rfl fun e _ => ?_
    rw [hX, v8_apply a0 a3 h.ids, a0_real a0 a1 a2 a3 h (ix3 _ _ e), ← EReal.coe_mul]
    rfl

end Step

end Cert.ReferenceIdeal.RefVal

end
-- ==== Proof.RefLoss.lean ====
import proofs.«204919_g30640296690406_cont_9to1_308_17_alg».proof.Proof.RefLogits
import Idealize.ShloMosaic.Lib.IdealHost
import Idealize.ShloMosaic.Lib.ValueIdxRank1

noncomputable section

namespace Cert.ReferenceIdeal.RefVal

open Cert.ReferenceIdeal Cert.ReferenceIdeal.RefTerm
open Idealize.ShloMosaic Idealize.ShloMosaic.ValueIdx
open Cert.Spec (sx sb sn lenOf)
open Cert.ReferenceIdeal.Facts₀ Cert.ReferenceIdeal.Facts

variable (a0 : (⟨S8x4096x128, .f32⟩ : BufTy).Contents (Elt Ideal)) (a1 : (⟨S8x4096x128x3, .f32⟩ : BufTy).Contents (Elt Ideal))
  (a2 : (⟨S8, .i32⟩ : BufTy).Contents (Elt Ideal)) (a3 : (⟨S8x16, .i32⟩ : BufTy).Contents (Elt Ideal))

private theorem row_real (l : Fin 17 → ℝ) (M : ℝ) :
    -((l 0 - M) - Real.log (∑ j : Fin 17, Real.exp (l j - M)))
      = Real.log (Real.exp (l 0) + ∑ n : Fin 16, Real.exp (l n.succ)) - l 0 := by
  have hpos : 0 < ∑ j : Fin 17, Real.exp (l j) :=
    Finset.sum_pos (fun _ _ => Real.exp_pos _) Finset.univ_nonempty
  have h1 : ∑ j : Fin 17, Real.exp (l j - M) = (∑ j : Fin 17, Real.exp (l j)) / Real.exp M := by
    rw [Finset.sum_div]; exact Finset.sum_congr rfl fun j _ => Real.exp_sub _ _
  rw [h1, Real.log_div hpos.ne' (Real.exp_pos M).ne', Real.log_exp, Fin.sum_univ_succ]
  ring

private theorem row_ereal (l : Fin 17 → ℝ) (M : ℝ) :
    ((l 0 : ℝ) : EReal) - (M : EReal) - Ideal.log (∑ k : Fin 17, Ideal.exp (((l k : ℝ) : EReal) - (M : EReal)))
      = ((-(Real.log (Real.exp (l 0) + ∑ n : Fin 16, Real.exp (l n.succ)) - l 0) : ℝ) : EReal) := by
  have hpos : 0 < ∑ j : Fin 17, Real.exp (l j - M) :=
    Finset.sum_pos (fun _ _ => Real.exp_pos _) Finset.univ_nonempty
  have he : ∀ k : Fin 17, Ideal.exp (((l k : ℝ) : EReal) - (M : EReal)) = ((Real.exp (l k - M) : ℝ) : EReal) := fun k => by
    rw [← EReal.coe_sub, Ideal.exp_coe]
  rw [Finset.sum_congr rfl fun k _ => he k, coe_sum, Ideal.log_coe, if_neg (not_le.mpr hpos),
    ← EReal.coe_sub, ← EReal.coe_sub, ← row_real l M, neg_neg]

private theorem fold_max_real {n : ℕ} (f : Fin (n + 1) → EReal) (hf : ∀ k, ∃ r : ℝ, f k = (r : EReal)) :
    ∃ M : ℝ, max (⊥ : EReal) ((Finset.univ : Finset (Fin (n + 1))).fold max (⊥ : EReal) f) = (M : EReal) := by
  have htop : (Finset.univ : Finset (Fin (n + 1))).fold max (⊥ : EReal) f ≠ ⊤ := by
    refine ne_of_lt ((Finset.fold_max_lt _).2 ⟨bot_lt_top, fun k _ => ?_⟩)
    obtain ⟨r, hr⟩ := hf k; rw [hr]; exact EReal.coe_lt_top r
  have hbot : (Finset.univ : Finset (Fin (n + 1))).fold max (⊥ : EReal) f ≠ ⊥ := by
    obtain ⟨r, hr⟩ := hf 0
    have hle : f 0 ≤ (Finset.univ : Finset (Fin (n + 1))).fold max (⊥ : EReal) f :=
      (Finset.le_fold_max _).2 (Or.inr ⟨0, Finset.mem_univ _, le_refl _⟩)
    intro e; rw [e, hr] at hle; exact absurd hle (not_le.mpr (EReal.bot_lt_coe r))
  exact ⟨_, by rw [max_eq_right bot_le, EReal.coe_toReal htop hbot]⟩

private theorem ninf_eq (i : S_.Idx) : ninf i = (⊥ : EReal) := by
  show Ideal.ofBits .f32 0xFF800000#32 = ⊥
  simp [Ideal.ofBits, Ideal.ieee]

section Lsm
variable {N : ℕ} (g1 : (⟨3, ![8, N, 17]⟩ : Shape).ReducesTo [2] ⟨2, ![8, N]⟩) (g2 : S_.BroadcastsInDim ⟨2, ![8, N]⟩ ![])
  (g3 : (⟨2, ![8, N]⟩ : Shape).BroadcastsInDim ⟨3, ![8, N, 1]⟩ ![0, 1])
  (g4 : (⟨3, ![8, N, 1]⟩ : Shape).BroadcastsInDim ⟨3, ![8, N, 17]⟩ ![0, 1, 2]) (x : FVec Ideal ⟨3, ![8, N, 17]⟩ .f32)

-- The greatest of a row of reals is a real, so subtracting it stays in the reals.
theorem ctr_real (b : Fin 8) (t : Fin N) (l : Fin 17 → ℝ) (hx : ∀ k, x (ix3 b t k) = ((l k : ℝ) : EReal)) :
    ∃ M : ℝ, ∀ k, ctr g1 g2 g3 g4 x (ix3 b t k) = ((l k : ℝ) : EReal) - (M : EReal) := by
  have R : (⟨3, ![8, N, 17]⟩ : Shape).Reduces [2] ⟨2, ![8, N]⟩ := ⟨g1.1, Nat.zero_lt_two, g1.2⟩
  obtain ⟨M, hM⟩ := fold_max_real (fun k => x (ix3 b t k)) fun k => ⟨l k, hx k⟩
  refine ⟨M, fun k => ?_⟩
  unfold ctr rowMax
  rw [subf_apply, bc_col, bc_row, maximumf_apply, broadcastInDim_scalar_apply, ninf_eq,
    Host.reduce_eq_fold_single _ x ninf _ R h_S_ (ix2 b t), ninf_eq, hx, ← hM]
  exact congrArg (fun f : Fin 17 → EReal => ((l k : ℝ) : EReal) - max ⊥ (Finset.univ.fold max ⊥ f))
    (funext fun k => congrArg x (lift3 R b t k))

theorem lse_apply (y : FVec Ideal ⟨3, ![8, N, 17]⟩ .f32) (b : Fin 8) (t : Fin N) (j : Fin 17) :
    broadcastInDim ⟨3, ![8, N, 17]⟩ ![0, 1, 2] g4 (Host.log (F := Ideal) (φ := .f32) (broadcastInDim ⟨3, ![8, N, 1]⟩ ![0, 1] g3
      (Host.reduceAdd (F := Ideal) (φ := .f32) y zero g1 h_S_))) (ix3 b t j) = Ideal.log (∑ k : Fin 17, y (ix3 b t k)) := by
  rw [bc_col]
  exact congrArg Ideal.log ((bc_row g3 _ b t).trans (sum_last g1 y b t))

-- The row maximum cancels between the centred logit and the log of the sum of the centred exponentials.
theorem lsm_col0 {X : Fin 3 → Fin 4096 → Fin 128 → ℝ} {B : Fin 4096 → Fin 128 → ℝ} {G : Fin 16 → Fin 128 → ℝ} {ℓ : ℕ}
    {s : Fin 3} {τ : Fin 4096} (b : Fin 8) (t : Fin N)
    (hx : ∀ k, x (ix3 b t k) = ((Cert.Spec.logit X B G ℓ s τ k : ℝ) : EReal)) :
    lsm g1 g2 g3 g4 x (ix3 b t (0 : Fin 17)) = ((-(Cert.Spec.term X B G ℓ s τ) : ℝ) : EReal) := by
  obtain ⟨M, h5⟩ := ctr_real g1 g2 g3 g4 x b t _ hx
  unfold lsm sumExp
  rw [subf_apply, lse_apply, h5]
  exact (congrArg (fun z => ((Cert.Spec.logit X B G ℓ s τ 0 : ℝ) : EReal) - (M : EReal) - Ideal.log z)
    (Finset.sum_congr rfl fun k _ => congrArg Ideal.exp (h5 k))).trans (row_ereal (Cert.Spec.logit X B G ℓ s τ) M)

end Lsm

private def stepSum (s : Fin 3) : ℝ :=
  ∑ b : Fin 8, ∑ t : Fin 4096,
    if t.val + s.val + 1 < 4096 then Cert.Spec.term (sx a1 b) (sb a0 b) (sn a0 a3 b) (lenOf a2 b) s t else 0

private theorem sum_castLE {n m : ℕ} (h : n ≤ m) (f : Fin m → ℝ) :
    ∑ t : Fin n, f ⟨t.val, lt_of_lt_of_le t.isLt h⟩ = ∑ t : Fin m, if t.val < n then f t else 0 := by
  rw [← Finset.sum_filter]
  refine Finset.sum_bij (fun t _ => (⟨t.val, lt_of_lt_of_le t.isLt h⟩ : Fin m)) ?_ ?_ ?_ ?_
  · intro t _; exact Finset.mem_filter.2 ⟨Finset.mem_univ _, t.isLt⟩
  · intro a _ b _ e; exact Fin.ext (by simpa using congrArg Fin.val e)
  · intro t ht; exact ⟨⟨t.val, (Finset.mem_filter.1 ht).2⟩, Finset.mem_univ _, rfl⟩
  · intro t _; rfl

section Tail
variable {N : ℕ}

private theorem col0_apply {α : Type} (sl : (⟨3, ![8, N, 17]⟩ : Shape).Slices ![0, 0, 0] ⟨3, ![8, N, 1]⟩)
    (sc : (⟨3, ![8, N, 1]⟩ : Shape).ShapeCasts ⟨2, ![8, N]⟩) (y : (⟨3, ![8, N, 17]⟩ : Shape).Idx → α) (b : Fin 8) (t : Fin N) :
    shapeCast ⟨2, ![8, N]⟩ (extractStridedSlice ⟨3, ![8, N, 1]⟩ ![0, 0, 0] y sl) sc (ix2 b t) = y (ix3 b t (0 : Fin 17)) :=
  (shapeCast_apply _ _ (ix2 b t) (ix3 b t (0 : Fin 1)) (by
      rw [Shape.rowMajor_val_three, Shape.rowMajor_val_two]
      show (b.val * N + t.val) * 1 + 0 = b.val * N + t.val
      rw [Nat.mul_one, Nat.add_zero])).trans
    (extractStridedSlice_apply _ _ _ (ix3 b t (0 : Fin 1)) (ix3 b t (0 : Fin 17)) fun a => by
      match a with
      | ⟨0, _⟩ => exact (Nat.zero_add _).symm
      | ⟨1, _⟩ => exact (Nat.zero_add _).symm
      | ⟨2, _⟩ => rfl)

private theorem mean_rows (s : Fin 3) (hN : N + s.val + 1 = 4096) (hr : (⟨2, ![8, N]⟩ : Shape).ReducesTo [0, 1] S_)
    (Y : FVec Ideal ⟨2, ![8, N]⟩ .f32) (cnt : FVec Ideal S_ .f32) (c : ℝ) (hc : cnt ix0 = (c : EReal)) (hc0 : c ≠ 0)
    (hY : ∀ b t, Y (ix2 b t)
      = ((-(Cert.Spec.term (sx a1 b) (sb a0 b) (sn a0 a3 b) (lenOf a2 b) s ⟨t.val, by omega⟩) : ℝ) : EReal)) :
    Host.negf (F := Ideal) (φ := .f32) (Host.divf (F := Ideal) (φ := .f32)
        (Host.reduceAdd (F := Ideal) (φ := .f32) Y zero hr h_S_) cnt) ix0
      = ((stepSum a0 a1 a2 a3 s * (1 / c) : ℝ) : EReal) := by
  show -(Ideal.div (Host.reduceAdd (F := Ideal) (φ := .f32) Y zero _ _ ix0) (cnt ix0)) = _
  rw [hc, Ideal.div_coe hc0, hostReduceAdd_apply, Ideal.hostReduceAdd_total _ (fun b => b.elim0),
    zero_eq, zero_add, sum_idx2]
  rw [Finset.sum_congr rfl fun b _ => Finset.sum_congr rfl fun t _ => hY b t]
  rw [Finset.sum_congr rfl fun b _ => coe_sum _ _, coe_sum, ← EReal.coe_mul, ← EReal.coe_neg]
  refine congrArg _ ?_
  unfold stepSum
  rw [← neg_mul, ← Finset.sum_neg_distrib]
  refine congrArg (· * _) (Finset.sum_congr rfl fun b _ => ?_)
  rw [← Finset.sum_neg_distrib, Finset.sum_congr rfl fun t _ => neg_neg _]
  rw [sum_castLE (show N ≤ 4096 by omega)
    (fun t => Cert.Spec.term (sx a1 b) (sb a0 b) (sn a0 a3 b) (lenOf a2 b) s t)]
  exact Finset.sum_congr rfl fun t _ => if_congr (by omega) rfl rfl

end Tail

private theorem count0_eq (i : S_.Idx) : count0 i = ((32760 : ℝ) : EReal) := by
  show Ideal.ofBits .f32 0x46FFF000#32 = _
  simp [Ideal.ofBits, Ideal.ieee, -EReal.coe_mul]; norm_num

private theorem count1_eq (i : S_.Idx) : count1 i = ((32752 : ℝ) : EReal) := by
  show Ideal.ofBits .f32 0x46FFE000#32 = _
  simp [Ideal.ofBits, Ideal.ieee, -EReal.coe_mul]; norm_num

private theorem count2_eq (i : S_.Idx) : count2 i = ((32744 : ℝ) : EReal) := by
  show Ideal.ofBits .f32 0x46FFD000#32 = _
  simp [Ideal.ofBits, Ideal.ieee, -EReal.coe_mul]; norm_num

private theorem three_eq (i : S_.Idx) : three i = ((3 : ℝ) : EReal) := by
  show Ideal.ofBits .f32 0x40400000#32 = _
  simp [Ideal.ofBits, Ideal.ieee, -EReal.coe_mul]; norm_num

-- a step's loss is its rows' terms summed and scaled: column 0 of the log-softmax of the logits is minus the row's term
private theorem step_eq {N : ℕ} {s : Fin 3} (hN : N + s.val + 1 = 4096) {f1 f2 f3 f4 f5 w f6 g1 g2 g3 g4 sl sc hr} {cnt : FVec Ideal S_ .f32} (c : ℝ)
    (hc : cnt ix0 = (c : EReal)) (hc0 : c ≠ 0) (h : Cert.Spec.Dom a0 a1 a2 a3) :
    stepLoss (N := N) sl sc hr cnt (lsm g1 g2 g3 g4 (logits a0 a1 a2 a3 s f1 f2 f3 f4 f5 w f6)) ix0
      = ((stepSum a0 a1 a2 a3 s * (1 / c) : ℝ) : EReal) :=
  mean_rows a0 a1 a2 a3 s hN hr _ cnt c hc hc0 fun b t =>
    (col0_apply sl sc _ b t).trans (lsm_col0 g1 g2 g3 g4 _ b t (logits_apply a0 a1 a2 a3 s hN f1 f2 f3 f4 f5 w f6 h b t))
private theorem v25_eq (h : Cert.Spec.Dom a0 a1 a2 a3) : v25 a0 a1 a2 a3 ix0 = ((stepSum a0 a1 a2 a3 0 * (1 / 32760) : ℝ) : EReal) :=
  step_eq a0 a1 a2 a3 (by rfl) 32760 (count0_eq _) (by norm_num) h
private theorem v39_eq (h : Cert.Spec.Dom a0 a1 a2 a3) : v39 a0 a1 a2 a3 ix0 = ((stepSum a0 a1 a2 a3 1 * (1 / 32752) : ℝ) : EReal) :=
  step_eq a0 a1 a2 a3 (by rfl) 32752 (count1_eq _) (by norm_num) h
private theorem v53_eq (h : Cert.Spec.Dom a0 a1 a2 a3) : v53 a0 a1 a2 a3 ix0 = ((stepSum a0 a1 a2 a3 2 * (1 / 32744) : ℝ) : EReal) :=
  step_eq a0 a1 a2 a3 (by rfl) 32744 (count2_eq _) (by norm_num) h
private theorem sum_idx1 {n : ℕ} (f : (⟨1, ![n]⟩ : Shape).Idx → EReal) : ∑ i, f i = ∑ k : Fin n, f (ix1 k) := by
  rw [← Equiv.sum_comp (idxEquiv1 (n := n)).symm f]
  rfl

private theorem v57_apply (k : Fin 3) :
    v57 a0 a1 a2 a3 (ix1 k)
      = (![v25 a0 a1 a2 a3 ix0, v39 a0 a1 a2 a3 ix0, v53 a0 a1 a2 a3 ix0] : Fin 3 → EReal) k := by
  unfold v57
  refine (concatenate_ofFn_unit_apply (t := S3) (s₁ := S1) (0 : Fin 1)
    (![v54 a0 a1 a2 a3, v55 a0 a1 a2 a3, v56 a0 a1 a2 a3] : Fin 3 → S1.Idx → EReal)
    concatenates_S1_S1_S1_S3_d0 rfl rfl (ix1 k) k rfl (ix1 (0 : Fin 1))
    (fun b hb => absurd (Subsingleton.elim _ _) hb)).trans ?_
  match k with
  | ⟨0, _⟩ => exact broadcastInDim_scalar_apply bcast_S_S1 (v25 a0 a1 a2 a3) _
  | ⟨1, _⟩ => exact broadcastInDim_scalar_apply bcast_S_S1 (v39 a0 a1 a2 a3) _
  | ⟨2, _⟩ => exact broadcastInDim_scalar_apply bcast_S_S1 (v53 a0 a1 a2 a3) _

private theorem loss_split :
    ∑ b : Fin 8, Cert.Spec.seqLoss (sx a1 b) (sb a0 b) (sn a0 a3 b) (lenOf a2 b)
      = ∑ s : Fin 3, stepSum a0 a1 a2 a3 s * Cert.Spec.wgt s := by
  unfold Cert.Spec.seqLoss stepSum
  rw [Finset.sum_comm]
  refine Finset.sum_congr rfl fun s _ => ?_
  rw [Finset.sum_mul]
  refine Finset.sum_congr rfl fun b _ => ?_
  rw [Finset.sum_mul]
  refine Finset.sum_congr rfl fun t _ => ?_
  rw [ite_mul, zero_mul]

theorem result_eq (h : Cert.Spec.Dom a0 a1 a2 a3) : result a0 a1 a2 a3 = Cert.Spec.out a0 a1 a2 a3 := by
  funext j
  rw [eq_ix0 j]
  unfold result v58
  show Ideal.div (Host.reduceAdd (F := Ideal) (φ := .f32) (v57 a0 a1 a2 a3) zero _ _ ix0) (three ix0) = _
  rw [three_eq, Ideal.div_coe (by norm_num), hostReduceAdd_apply, Ideal.hostReduceAdd_total _ (fun b => b.elim0),
    zero_eq, zero_add, sum_idx1, Finset.sum_congr rfl fun k _ => v57_apply a0 a1 a2 a3 k, Fin.sum_univ_three]
  show (v25 a0 a1 a2 a3 ix0 + v39 a0 a1 a2 a3 ix0 + v53 a0 a1 a2 a3 ix0) * _ = _
  rw [v25_eq a0 a1 a2 a3 h, v39_eq a0 a1 a2 a3 h, v53_eq a0 a1 a2 a3 h, ← EReal.coe_add, ← EReal.coe_add, ← EReal.coe_mul]
  show _ = ((Cert.Spec.loss (Cert.Spec.real3 a0) (Cert.Spec.real4 a1) (lenOf a2) (Cert.Spec.pickOf a3) : ℝ) : EReal)
  refine congrArg _ ?_
  rw [Cert.Spec.loss_eq, loss_split, Fin.sum_univ_three]
  have w0 : Cert.Spec.wgt 0 = 1 / 32760 * (1 / 3) := by
    show (1 : ℝ) / (24 * (4095 - ((0 : ℕ) : ℝ))) = _
    norm_num
  have w1 : Cert.Spec.wgt 1 = 1 / 32752 * (1 / 3) := by
    show (1 : ℝ) / (24 * (4095 - ((1 : ℕ) : ℝ))) = _
    norm_num
  have w2 : Cert.Spec.wgt 2 = 1 / 32744 * (1 / 3) := by
    show (1 : ℝ) / (24 * (4095 - ((2 : ℕ) : ℝ))) = _
    norm_num
  rw [w0, w1, w2]
  ring

end Cert.ReferenceIdeal.RefVal

end
-- ==== Proof.Claims.lean ====
/- The five claims, assembled. The word-level program is the idealized program's own text (no rewrite was applied), so its run is the same theorem at the word instance. -/
import proofs.«204919_g30640296690406_cont_9to1_308_17_alg».proof.Defs
import proofs.«204919_g30640296690406_cont_9to1_308_17_alg».proof.Proof.Gen.Kernel
import proofs.«204919_g30640296690406_cont_9to1_308_17_alg».proof.Proof.Gen.KernelIdeal
import proofs.«204919_g30640296690406_cont_9to1_308_17_alg».proof.Proof.Gen.ReferenceIdeal
import proofs.«204919_g30640296690406_cont_9to1_308_17_alg».proof.Proof.Gen.Pre_input_domain
import proofs.«204919_g30640296690406_cont_9to1_308_17_alg».proof.Proof.PreDecode
import proofs.«204919_g30640296690406_cont_9to1_308_17_alg».proof.Proof.KMain
import proofs.«204919_g30640296690406_cont_9to1_308_17_alg».proof.Proof.KResult
import proofs.«204919_g30640296690406_cont_9to1_308_17_alg».proof.Proof.RefRun
import proofs.«204919_g30640296690406_cont_9to1_308_17_alg».proof.Proof.RefLoss

noncomputable section

namespace Cert.Proof.Claims

open Idealize.ShloMosaic Idealize.SL.Sem

section Word

variable {F : FTy → Type} [FloatOps F]

theorem defs₀_eq : (Cert.Kernel.defs₀ (F := F)) = (Cert.KernelIdeal.defs₀ (F := F)) := by
  funext c ℓ
  cases c <;> exact match ℓ with
    | ⟨0, _⟩ => rfl
    | ⟨1, _⟩ => rfl

theorem defs_eq : (Cert.Kernel.defs (F := F)) = (Cert.KernelIdeal.defs (F := F)) := by
  unfold Cert.Kernel.defs Cert.KernelIdeal.defs
  rw [defs₀_eq]
  rfl

theorem run_eq (d : Dev Cert.Kernel.nD) :
    SparseCore.Cfg.run (Val := Elt F) (Cert.Kernel.sc (F := F)) d 0 = SparseCore.Cfg.run (Val := Elt F) (Cert.KernelIdeal.sc (F := F)) d 0 := rfl

theorem main_eq : (Cert.Kernel.main (F := F)) = (Cert.KernelIdeal.main (F := F)) := by
  funext d
  unfold Cert.Kernel.main Cert.KernelIdeal.main
  rw [run_eq]
  rfl

theorem threads_eq : (Cert.Kernel.threads (F := F)) = (Cert.KernelIdeal.threads (F := F)) := by
  show (Cert.Kernel.sc (F := F)).threads Cert.Kernel.main = (Cert.KernelIdeal.sc (F := F)).threads Cert.KernelIdeal.main
  rw [main_eq]
  rfl

/-- The sample ids name rows of the table: what the kernel's gather needs to end. -/
theorem preOK {m : (ℓ : Loc Cert.KernelIdeal.nD Cert.KernelIdeal.τ Cert.KernelIdeal.sig) → Buf (Elt F) ℓ}
    (h : ∀ c : Dev Cert.KernelIdeal.nD, Cert.Pre_input_domain.fn (F := F) (m ((c.tc : Thread _ _).loc Cert.KernelIdeal.main_arg0))
      (m ((c.tc : Thread _ _).loc Cert.KernelIdeal.main_arg1)) (m ((c.tc : Thread _ _).loc Cert.KernelIdeal.main_arg2))
      (m ((c.tc : Thread _ _).loc Cert.KernelIdeal.main_arg3)) = fun _ => 1#1) : Cert.KernelIdeal.KF.PreOK m :=
  fun d j => Nat.lt_succ_of_le ((Cert.PreDecode.toNat_ranges_of_pre _ _ _ _ (h d)).2 j)

end Word

theorem frame_k : Cert.frame_Kernel := by
  intro m ρ hpre
  rw [defs_eq, threads_eq]
  exact (Cert.KernelIdeal.KF.run_main (F := Bits) m ρ (preOK hpre)).mono (fun _ h c => (h c).2)

theorem frame_ki : Cert.frame_KernelIdeal := fun m ρ hpre =>
  (Cert.KernelIdeal.KF.run_main (F := Ideal) m ρ (preOK hpre)).mono (fun _ h c => (h c).2)

theorem frame_ri : Cert.frame_ReferenceIdeal := fun m ρ _ =>
  (Cert.ReferenceIdeal.RefRun.run m ρ).mono (fun _ h c => (h c).2)

theorem preserves : Cert.preserves_Kernel_KernelIdeal := trivial

/-- Both idealized programs end with the specification's number. -/
theorem algebraic : Cert.algebraic_KernelIdeal_ReferenceIdeal := by
  intro m ρ m' ρ' hpre hagree
  refine ⟨fun c => Cert.Spec.out (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3)), ?_, ?_⟩
  · refine (Cert.KernelIdeal.KF.run_main (F := Ideal) m ρ (preOK hpre)).mono (fun _ h c => ⟨(h c).1.trans ?_, (h c).2⟩)
    exact Cert.KernelIdeal.KV.result_eq Cert.KernelIdeal.KF.gat (fun tbl ids r e h => Cert.KernelIdeal.KF.gat_apply tbl ids r e h) _ _ _ _
      (Cert.PreDecode.dom_of_pre _ _ _ _ (hpre c))
  · refine (Cert.ReferenceIdeal.RefRun.run m' ρ').mono (fun _ h c => ⟨(h c).1.trans ?_, (h c).2⟩)
    rw [(hagree c).1, (hagree c).2.1, (hagree c).2.2.1, (hagree c).2.2.2]
    exact Cert.ReferenceIdeal.RefVal.result_eq _ _ _ _ (Cert.PreDecode.dom_of_pre _ _ _ _ (hpre c))

end Cert.Proof.Claims

end
-- ==== Proof.lean ====
/- The certificate's claim: three frames, the empty idealization ledger, and the two idealized programs' equal results. -/
import proofs.«204919_g30640296690406_cont_9to1_308_17_alg».proof.Defs
import proofs.«204919_g30640296690406_cont_9to1_308_17_alg».proof.Proof.Gen.Kernel
import proofs.«204919_g30640296690406_cont_9to1_308_17_alg».proof.Proof.Gen.Kernel.Skeleton
import proofs.«204919_g30640296690406_cont_9to1_308_17_alg».proof.Proof.Gen.Kernel.Launch
import proofs.«204919_g30640296690406_cont_9to1_308_17_alg».proof.Proof.Gen.Kernel.Points
import proofs.«204919_g30640296690406_cont_9to1_308_17_alg».proof.Proof.Gen.KernelIdeal
import proofs.«204919_g30640296690406_cont_9to1_308_17_alg».proof.Proof.Gen.KernelIdeal.Skeleton
import proofs.«204919_g30640296690406_cont_9to1_308_17_alg».proof.Proof.Gen.KernelIdeal.Launch
import proofs.«204919_g30640296690406_cont_9to1_308_17_alg».proof.Proof.Gen.KernelIdeal.Points
import proofs.«204919_g30640296690406_cont_9to1_308_17_alg».proof.Proof.Gen.ReferenceIdeal
import proofs.«204919_g30640296690406_cont_9to1_308_17_alg».proof.Proof.Gen.Pre_input_domain
import proofs.«204919_g30640296690406_cont_9to1_308_17_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_input_domain.Gen.facts,
    Claims.frame_k, Claims.frame_ki, Claims.frame_ri, Claims.preserves, Claims.algebraic⟩

end Cert.Proof

end
